-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S3x33x33x33 .f32) (main_arg1 : FVec F S8x3x1024x1024 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩
abbrev S1x8x1024x1024 : Shape := ⟨4, ![1, 8, 1024, 1024]⟩
abbrev S3x8x128x256 : Shape := ⟨4, ![3, 8, 128, 256]⟩
abbrev S8x128x256 : Shape := ⟨3, ![8, 128, 256]⟩
abbrev S8x3x128x256 : Shape := ⟨4, ![8, 3, 128, 256]⟩
abbrev S1x8x128x256 : Shape := ⟨4, ![1, 8, 128, 256]⟩
abbrev S8x1x128x256 : Shape := ⟨4, ![8, 1, 128, 256]⟩

abbrev nBuf : Space → Nat
  | .hbm => 219
  | .vmem => 8
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S8x1x1024x1024, .f32⟩
  | 5 => ⟨S8x1024x1024, .f32⟩
  | 6 => ⟨S8x1x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S3x35937, .f32⟩
  | 54 => ⟨S_, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i32⟩
  | 65 => ⟨S_, .i32⟩
  | 66 => ⟨S8x1024x1024, .i32⟩
  | 67 => ⟨S8x1024x1024, .i1⟩
  | 68 => ⟨S_, .i32⟩
  | 69 => ⟨S8x1024x1024, .i32⟩
  | 70 => ⟨S8x1024x1024, .i32⟩
  | 71 => ⟨S8x1024x1024, .i32⟩
  | 72 => ⟨S8x1024x1024x1, .i32⟩
  | 73 => ⟨S3x8x1024x1024, .f32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i1⟩
  | 80 => ⟨S_, .i32⟩
  | 81 => ⟨S8x1024x1024, .i32⟩
  | 82 => ⟨S8x1024x1024, .i32⟩
  | 83 => ⟨S8x1024x1024, .i32⟩
  | 84 => ⟨S8x1024x1024x1, .i32⟩
  | 85 => ⟨S3x8x1024x1024, .f32⟩
  | 86 => ⟨S_, .f32⟩
  | 87 => ⟨S8x1024x1024, .f32⟩
  | 88 => ⟨S8x1024x1024, .f32⟩
  | 89 => ⟨S1x8x1024x1024, .f32⟩
  | 90 => ⟨S3x8x1024x1024, .f32⟩
  | 91 => ⟨S3x8x1024x1024, .f32⟩
  | 92 => ⟨S1x8x1024x1024, .f32⟩
  | 93 => ⟨S3x8x1024x1024, .f32⟩
  | 94 => ⟨S3x8x1024x1024, .f32⟩
  | 95 => ⟨S3x8x1024x1024, .f32⟩
  | 96 => ⟨S_, .i32⟩
  | 97 => ⟨S8x1024x1024, .i32⟩
  | 98 => ⟨S8x1024x1024, .i32⟩
  | 99 => ⟨S_, .i32⟩
  | 100 => ⟨S8x1024x1024, .i32⟩
  | 101 => ⟨S8x1024x1024, .i1⟩
  | 102 => ⟨S_, .i32⟩
  | 103 => ⟨S8x1024x1024, .i32⟩
  | 104 => ⟨S8x1024x1024, .i32⟩
  | 105 => ⟨S8x1024x1024, .i32⟩
  | 106 => ⟨S8x1024x1024x1, .i32⟩
  | 107 => ⟨S3x8x1024x1024, .f32⟩
  | 108 => ⟨S_, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S3x8x1024x1024, .f32⟩
  | 120 => ⟨S_, .f32⟩
  | 121 => ⟨S8x1024x1024, .f32⟩
  | 122 => ⟨S8x1024x1024, .f32⟩
  | 123 => ⟨S1x8x1024x1024, .f32⟩
  | 124 => ⟨S3x8x1024x1024, .f32⟩
  | 125 => ⟨S3x8x1024x1024, .f32⟩
  | 126 => ⟨S1x8x1024x1024, .f32⟩
  | 127 => ⟨S3x8x1024x1024, .f32⟩
  | _ => ⟨S3x33x33x33, .f32⟩

abbrev hbmTy0_1 (i : Nat) : BufTy := match i % 128 with
  | 0 => ⟨S3x8x1024x1024, .f32⟩
  | 1 => ⟨S3x8x1024x1024, .f32⟩
  | 2 => ⟨S_, .f32⟩
  | 3 => ⟨S8x1024x1024, .f32⟩
  | 4 => ⟨S8x1024x1024, .f32⟩
  | 5 => ⟨S1x8x1024x1024, .f32⟩
  | 6 => ⟨S3x8x1024x1024, .f32⟩
  | 7 => ⟨S3x8x1024x1024, .f32⟩
  | 8 => ⟨S1x8x1024x1024, .f32⟩
  | 9 => ⟨S3x8x1024x1024, .f32⟩
  | 10 => ⟨S3x8x1024x1024, .f32⟩
  | 11 => ⟨S3x8x1024x1024, .f32⟩
  | 12 => ⟨S_, .i32⟩
  | 13 => ⟨S8x1024x1024, .i32⟩
  | 14 => ⟨S8x1024x1024, .i32⟩
  | 15 => ⟨S_, .i32⟩
  | 16 => ⟨S8x1024x1024, .i32⟩
  | 17 => ⟨S8x1024x1024, .i1⟩
  | 18 => ⟨S_, .i32⟩
  | 19 => ⟨S8x1024x1024, .i32⟩
  | 20 => ⟨S8x1024x1024, .i32⟩
  | 21 => ⟨S8x1024x1024, .i32⟩
  | 22 => ⟨S8x1024x1024x1, .i32⟩
  | 23 => ⟨S3x8x1024x1024, .f32⟩
  | 24 => ⟨S_, .i32⟩
  | 25 => ⟨S8x1024x1024, .i32⟩
  | 26 => ⟨S8x1024x1024, .i32⟩
  | 27 => ⟨S_, .i32⟩
  | 28 => ⟨S8x1024x1024, .i32⟩
  | 29 => ⟨S8x1024x1024, .i1⟩
  | 30 => ⟨S_, .i32⟩
  | 31 => ⟨S8x1024x1024, .i32⟩
  | 32 => ⟨S8x1024x1024, .i32⟩
  | 33 => ⟨S8x1024x1024, .i32⟩
  | 34 => ⟨S8x1024x1024x1, .i32⟩
  | 35 => ⟨S3x8x1024x1024, .f32⟩
  | 36 => ⟨S_, .f32⟩
  | 37 => ⟨S8x1024x1024, .f32⟩
  | 38 => ⟨S8x1024x1024, .f32⟩
  | 39 => ⟨S1x8x1024x1024, .f32⟩
  | 40 => ⟨S3x8x1024x1024, .f32⟩
  | 41 => ⟨S3x8x1024x1024, .f32⟩
  | 42 => ⟨S1x8x1024x1024, .f32⟩
  | 43 => ⟨S3x8x1024x1024, .f32⟩
  | 44 => ⟨S3x8x1024x1024, .f32⟩
  | 45 => ⟨S3x8x1024x1024, .f32⟩
  | 46 => ⟨S_, .i32⟩
  | 47 => ⟨S8x1024x1024, .i32⟩
  | 48 => ⟨S8x1024x1024, .i32⟩
  | 49 => ⟨S_, .i32⟩
  | 50 => ⟨S8x1024x1024, .i32⟩
  | 51 => ⟨S8x1024x1024, .i1⟩
  | 52 => ⟨S_, .i32⟩
  | 53 => ⟨S8x1024x1024, .i32⟩
  | 54 => ⟨S8x1024x1024, .i32⟩
  | 55 => ⟨S8x1024x1024, .i32⟩
  | 56 => ⟨S8x1024x1024x1, .i32⟩
  | 57 => ⟨S3x8x1024x1024, .f32⟩
  | 58 => ⟨S_, .i32⟩
  | 59 => ⟨S8x1024x1024, .i32⟩
  | 60 => ⟨S8x1024x1024, .i32⟩
  | 61 => ⟨S_, .i32⟩
  | 62 => ⟨S8x1024x1024, .i32⟩
  | 63 => ⟨S8x1024x1024, .i1⟩
  | 64 => ⟨S_, .i32⟩
  | 65 => ⟨S8x1024x1024, .i32⟩
  | 66 => ⟨S8x1024x1024, .i32⟩
  | 67 => ⟨S8x1024x1024, .i32⟩
  | 68 => ⟨S8x1024x1024x1, .i32⟩
  | 69 => ⟨S3x8x1024x1024, .f32⟩
  | 70 => ⟨S_, .f32⟩
  | 71 => ⟨S8x1024x1024, .f32⟩
  | 72 => ⟨S8x1024x1024, .f32⟩
  | 73 => ⟨S1x8x1024x1024, .f32⟩
  | 74 => ⟨S3x8x1024x1024, .f32⟩
  | 75 => ⟨S3x8x1024x1024, .f32⟩
  | 76 => ⟨S1x8x1024x1024, .f32⟩
  | 77 => ⟨S3x8x1024x1024, .f32⟩
  | 78 => ⟨S3x8x1024x1024, .f32⟩
  | 79 => ⟨S3x8x1024x1024, .f32⟩
  | 80 => ⟨S_, .f32⟩
  | 81 => ⟨S8x1024x1024, .f32⟩
  | 82 => ⟨S8x1024x1024, .f32⟩
  | 83 => ⟨S1x8x1024x1024, .f32⟩
  | 84 => ⟨S3x8x1024x1024, .f32⟩
  | 85 => ⟨S3x8x1024x1024, .f32⟩
  | 86 => ⟨S1x8x1024x1024, .f32⟩
  | 87 => ⟨S3x8x1024x1024, .f32⟩
  | 88 => ⟨S3x8x1024x1024, .f32⟩
  | 89 => ⟨S3x8x1024x1024, .f32⟩
  | 90 => ⟨S8x3x1024x1024, .f32⟩
  | _ => ⟨S3x33x33x33, .f32⟩

abbrev hbmTy (i : Nat) : BufTy := match i / 128 with
  | 0 => hbmTy0_0 i
  | 1 => hbmTy0_1 i
  | _ => ⟨S3x33x33x33, .f32⟩

abbrev bufTy : (tb : Table) → Fin (tcTables nBuf tb) → BufTy
  | .hbm, ⟨i, _⟩ => hbmTy i
  | .local _ .vmem, ⟨0, _⟩ => ⟨S3x8x128x256, .f32⟩
  | .local _ .vmem, ⟨1, _⟩ => ⟨S3x8x128x256, .f32⟩
  | .local _ .vmem, ⟨2, _⟩ => ⟨S3x8x128x256, .f32⟩
  | .local _ .vmem, ⟨3, _⟩ => ⟨S3x8x128x256, .f32⟩
  | .local _ .vmem, ⟨4, _⟩ => ⟨S8x128x256, .f32⟩
  | .local _ .vmem, ⟨5, _⟩ => ⟨S8x128x256, .f32⟩
  | .local _ .vmem, ⟨6, _⟩ => ⟨S8x3x128x256, .f32⟩
  | .local _ .vmem, ⟨7, _⟩ => ⟨S8x3x128x256, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_c_13 : Ref sig .tc := ⟨.hbm, 77, rfl⟩
abbrev main_v45 : Ref sig .tc := ⟨.hbm, 78, rfl⟩
abbrev main_v46 : Ref sig .tc := ⟨.hbm, 79, rfl⟩
abbrev main_c_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_15 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_c_17 : Ref sig .tc := ⟨.hbm, 99, rfl⟩
abbrev main_v63 : Ref sig .tc := ⟨.hbm, 100, rfl⟩
abbrev main_v64 : Ref sig .tc := ⟨.hbm, 101, rfl⟩
abbrev main_c_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_c_20 : Ref sig .tc := ⟨.hbm, 111, rfl⟩
abbrev main_v72 : Ref sig .tc := ⟨.hbm, 112, rfl⟩
abbrev main_v73 : Ref sig .tc := ⟨.hbm, 113, rfl⟩
abbrev main_c_21 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_22 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_23 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_24 : Ref sig .tc := ⟨.hbm, 140, rfl⟩
abbrev main_v97 : Ref sig .tc := ⟨.hbm, 141, rfl⟩
abbrev main_v98 : Ref sig .tc := ⟨.hbm, 142, rfl⟩
abbrev main_c_25 : Ref sig .tc := ⟨.hbm, 143, rfl⟩
abbrev main_v99 : Ref sig .tc := ⟨.hbm, 144, rfl⟩
abbrev main_v100 : Ref sig .tc := ⟨.hbm, 145, rfl⟩
abbrev main_c_26 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_27 : Ref sig .tc := ⟨.hbm, 152, rfl⟩
abbrev main_v106 : Ref sig .tc := ⟨.hbm, 153, rfl⟩
abbrev main_v107 : Ref sig .tc := ⟨.hbm, 154, rfl⟩
abbrev main_c_28 : Ref sig .tc := ⟨.hbm, 155, rfl⟩
abbrev main_v108 : Ref sig .tc := ⟨.hbm, 156, rfl⟩
abbrev main_v109 : Ref sig .tc := ⟨.hbm, 157, rfl⟩
abbrev main_c_29 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_30 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_31 : Ref sig .tc := ⟨.hbm, 174, rfl⟩
abbrev main_v124 : Ref sig .tc := ⟨.hbm, 175, rfl⟩
abbrev main_v125 : Ref sig .tc := ⟨.hbm, 176, rfl⟩
abbrev main_c_32 : Ref sig .tc := ⟨.hbm, 177, rfl⟩
abbrev main_v126 : Ref sig .tc := ⟨.hbm, 178, rfl⟩
abbrev main_v127 : Ref sig .tc := ⟨.hbm, 179, rfl⟩
abbrev main_c_33 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_34 : Ref sig .tc := ⟨.hbm, 186, rfl⟩
abbrev main_v133 : Ref sig .tc := ⟨.hbm, 187, rfl⟩
abbrev main_v134 : Ref sig .tc := ⟨.hbm, 188, rfl⟩
abbrev main_c_35 : Ref sig .tc := ⟨.hbm, 189, rfl⟩
abbrev main_v135 : Ref sig .tc := ⟨.hbm, 190, rfl⟩
abbrev main_v136 : Ref sig .tc := ⟨.hbm, 191, rfl⟩
abbrev main_c_36 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_37 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_38 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S3x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x3x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S8x1024x1024_S8x1024x1024x1_0_1_2 : S8x1024x1024.BroadcastsInDim S8x1024x1024x1 (![0, 1, 2] : Fin 3 → Fin S8x1024x1024x1.rank)
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  inb_S3x8x128x256_S1x8x128x256_0_0_0_0 : ∀ a, (![0, 0, 0, 0] : Fin 4 → Nat) a + S1x8x128x256.size a ≤ S3x8x128x256.size a
  h_S1x8x128x256 : 0 < S1x8x128x256.numel
  shapeCasts_S1x8x128x256_S8x128x256 : S1x8x128x256.ShapeCasts S8x128x256
  inb_S8x3x128x256_S8x1x128x256_0_0_0_0 : ∀ a, (![0, 0, 0, 0] : Fin 4 → Nat) a + S8x1x128x256.size a ≤ S8x3x128x256.size a
  h_S8x1x128x256 : 0 < S8x1x128x256.numel
  shapeCasts_S8x1x128x256_S8x128x256 : S8x1x128x256.ShapeCasts S8x128x256
  shapeCasts_S8x128x256_S8x1x128x256 : S8x128x256.ShapeCasts S8x1x128x256
  inb_S3x8x128x256_S1x8x128x256_1_0_0_0 : ∀ a, (![1, 0, 0, 0] : Fin 4 → Nat) a + S1x8x128x256.size a ≤ S3x8x128x256.size a
  inb_S8x3x128x256_S8x1x128x256_0_1_0_0 : ∀ a, (![0, 1, 0, 0] : Fin 4 → Nat) a + S8x1x128x256.size a ≤ S8x3x128x256.size a
  inb_S3x8x128x256_S1x8x128x256_2_0_0_0 : ∀ a, (![2, 0, 0, 0] : Fin 4 → Nat) a + S1x8x128x256.size a ≤ S3x8x128x256.size a
  inb_S8x3x128x256_S8x1x128x256_0_2_0_0 : ∀ a, (![0, 2, 0, 0] : Fin 4 → Nat) a + S8x1x128x256.size a ≤ S8x3x128x256.size a
  gather_S3x35937_S8x1024x1024x1_S3x8x1024x1024_0_1_n_n_1_3_31_wf : GatherDims.WF S3x35937 S8x1024x1024x1 S3x8x1024x1024 [0] [1] [] [1] [] 3 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x128x256.size a ≤ S3x8x1024x1024.size a
  hwx0_0 : ∀ i : grid0.Coords, EltTy.bits .f32 = 32 ∨ (Rect.block (s := S3x8x1024x1024) S3x8x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8x128x256.size a ≤ S3x8x1024x1024.size a
  hwx0_1 : ∀ i : grid0.Coords, EltTy.bits .f32 = 32 ∨ (Rect.block (s := S3x8x1024x1024) S3x8x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S8x1024x1024.size a
  hwx0_2 : ∀ i : grid0.Coords, EltTy.bits .f32 = 32 ∨ (Rect.block (s := S8x1024x1024) S8x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3x128x256.size a ≤ S8x3x1024x1024.size a
  hwx0_3 : ∀ i : grid0.Coords, EltTy.bits .f32 = 32 ∨ (Rect.block (s := S8x3x1024x1024) S8x3x128x256.size (cc0_transform_3 i) (hinb0_3 i)).WholeWords (EltTy.packing .f32)

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

abbrev win0_0 : Pipeline.Window sig grid0 :=
  Pipeline.Window.ofSpec (Memref.whole main_v96) S3x8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v159) S3x8x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v160) S8x3x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x8x1024x1024 : Shape := ⟨4, ![3, 8, 1024, 1024]⟩
abbrev S8x1024x1024x1 : Shape := ⟨4, ![8, 1024, 1024, 1]⟩
abbrev S8x1024x1024x3 : Shape := ⟨4, ![8, 1024, 1024, 3]⟩
abbrev S1x8x1024x1024 : Shape := ⟨4, ![1, 8, 1024, 1024]⟩

abbrev nBuf : Space → Nat
  | .hbm => 405
  | .vmem => 0
  | .smem => 0
  | _ => 0

abbrev hbmTy0_0 (i : Nat) : BufTy := match i % 128 with
  | 0 => ⟨S3x33x33x33, .f32⟩
  | 1 => ⟨S8x3x1024x1024, .f32⟩
  | 2 => ⟨S8x1x1024x1024, .f32⟩
  | 3 => ⟨S8x1024x1024, .f32⟩
  | 4 => ⟨S8x1x1024x1024, .f32⟩
  | 5 => ⟨S8x1024x1024, .f32⟩
  | 6 => ⟨S8x1x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .i32⟩
  | 20 => ⟨S_, .i32⟩
  | 21 => ⟨S_, .i32⟩
  | 22 => ⟨S8x1024x1024, .i32⟩
  | 23 => ⟨S8x1024x1024, .i32⟩
  | 24 => ⟨S_, .i32⟩
  | 25 => ⟨S8x1024x1024, .i32⟩
  | 26 => ⟨S8x1024x1024, .i32⟩
  | 27 => ⟨S8x1024x1024, .f32⟩
  | 28 => ⟨S8x1024x1024, .i32⟩
  | 29 => ⟨S_, .i32⟩
  | 30 => ⟨S_, .i32⟩
  | 31 => ⟨S_, .i32⟩
  | 32 => ⟨S8x1024x1024, .i32⟩
  | 33 => ⟨S8x1024x1024, .i32⟩
  | 34 => ⟨S_, .i32⟩
  | 35 => ⟨S8x1024x1024, .i32⟩
  | 36 => ⟨S8x1024x1024, .i32⟩
  | 37 => ⟨S8x1024x1024, .f32⟩
  | 38 => ⟨S8x1024x1024, .i32⟩
  | 39 => ⟨S_, .i32⟩
  | 40 => ⟨S_, .i32⟩
  | 41 => ⟨S_, .i32⟩
  | 42 => ⟨S8x1024x1024, .i32⟩
  | 43 => ⟨S8x1024x1024, .i32⟩
  | 44 => ⟨S_, .i32⟩
  | 45 => ⟨S8x1024x1024, .i32⟩
  | 46 => ⟨S8x1024x1024, .i32⟩
  | 47 => ⟨S8x1024x1024, .f32⟩
  | 48 => ⟨S8x1024x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S_, .f32⟩
  | 54 => ⟨S3x8x1024x1024, .f32⟩
  | 55 => ⟨S_, .f32⟩
  | 56 => ⟨S8x1024x1024, .f32⟩
  | 57 => ⟨S8x1024x1024, .f32⟩
  | 58 => ⟨S_, .f32⟩
  | 59 => ⟨S8x1024x1024, .f32⟩
  | 60 => ⟨S8x1024x1024, .f32⟩
  | 61 => ⟨S_, .f32⟩
  | 62 => ⟨S8x1024x1024, .f32⟩
  | 63 => ⟨S8x1024x1024, .f32⟩
  | 64 => ⟨S8x1024x1024, .f32⟩
  | 65 => ⟨S8x1024x1024, .f32⟩
  | 66 => ⟨S_, .i32⟩
  | 67 => ⟨S8x1024x1024, .i32⟩
  | 68 => ⟨S8x1024x1024, .i32⟩
  | 69 => ⟨S_, .i32⟩
  | 70 => ⟨S8x1024x1024, .i32⟩
  | 71 => ⟨S8x1024x1024, .i32⟩
  | 72 => ⟨S_, .i32⟩
  | 73 => ⟨S8x1024x1024, .i32⟩
  | 74 => ⟨S8x1024x1024, .i32⟩
  | 75 => ⟨S_, .i32⟩
  | 76 => ⟨S8x1024x1024, .i32⟩
  | 77 => ⟨S8x1024x1024, .i1⟩
  | 78 => ⟨S_, .i32⟩
  | 79 => ⟨S8x1024x1024, .i32⟩
  | 80 => ⟨S8x1024x1024, .i32⟩
  | 81 => ⟨S8x1024x1024, .i32⟩
  | 82 => ⟨S_, .i32⟩
  | 83 => ⟨S8x1024x1024, .i32⟩
  | 84 => ⟨S8x1024x1024, .i1⟩
  | 85 => ⟨S_, .i32⟩
  | 86 => ⟨S8x1024x1024, .i32⟩
  | 87 => ⟨S8x1024x1024, .i32⟩
  | 88 => ⟨S8x1024x1024, .i32⟩
  | 89 => ⟨S_, .i32⟩
  | 90 => ⟨S8x1024x1024, .i32⟩
  | 91 => ⟨S8x1024x1024, .i1⟩
  | 92 => ⟨S_, .i32⟩
  | 93 => ⟨S8x1024x1024, .i32⟩
  | 94 => ⟨S8x1024x1024, .i32⟩
  | 95 => ⟨S8x1024x1024, .i32⟩
  | 96 => ⟨S8x1024x1024x1, .i32⟩
  | 97 => ⟨S8x1024x1024x1, .i32⟩
  | 98 => ⟨S8x1024x1024x1, .i32⟩
  | 99 => ⟨S8x1024x1024x3, .i32⟩
  | 100 => ⟨S3x8x1024x1024, .f32⟩
  | 101 => ⟨S1x8x1024x1024, .f32⟩
  | 102 => ⟨S3x8x1024x1024, .f32⟩
  | 103 => ⟨S3x8x1024x1024, .f32⟩
  | 104 => ⟨S3x8x1024x1024, .f32⟩
  | 105 => ⟨S8x1024x1024, .f32⟩
  | 106 => ⟨S8x1024x1024, .f32⟩
  | 107 => ⟨S_, .i32⟩
  | 108 => ⟨S8x1024x1024, .i32⟩
  | 109 => ⟨S8x1024x1024, .i32⟩
  | 110 => ⟨S_, .i32⟩
  | 111 => ⟨S8x1024x1024, .i32⟩
  | 112 => ⟨S8x1024x1024, .i32⟩
  | 113 => ⟨S_, .i32⟩
  | 114 => ⟨S8x1024x1024, .i32⟩
  | 115 => ⟨S8x1024x1024, .i32⟩
  | 116 => ⟨S_, .i32⟩
  | 117 => ⟨S8x1024x1024, .i32⟩
  | 118 => ⟨S8x1024x1024, .i1⟩
  | 119 => ⟨S_, .i32⟩
  | 120 => ⟨S8x1024x1024, .i32⟩
  | 121 => ⟨S8x1024x1024, .i32⟩
  | 122 => ⟨S8x1024x1024, .i32⟩
  | 123 => ⟨S_, .i32⟩
  | 124 => ⟨S8x1024x1024, .i32⟩
  | 125 => ⟨S8x1024x1024, .i1⟩
  | 126 => ⟨S_, .i32⟩
  | 127 => ⟨S8x1024x1024, .i32⟩
  | _ => ⟨S3x33x33x33, .f32⟩

abbrev hbmTy0_1 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i1⟩
  | 5 => ⟨S_, .i32⟩
  | 6 => ⟨S8x1024x1024, .i32⟩
  | 7 => ⟨S8x1024x1024, .i32⟩
  | 8 => ⟨S8x1024x1024, .i32⟩
  | 9 => ⟨S8x1024x1024x1, .i32⟩
  | 10 => ⟨S8x1024x1024x1, .i32⟩
  | 11 => ⟨S8x1024x1024x1, .i32⟩
  | 12 => ⟨S8x1024x1024x3, .i32⟩
  | 13 => ⟨S3x8x1024x1024, .f32⟩
  | 14 => ⟨S1x8x1024x1024, .f32⟩
  | 15 => ⟨S3x8x1024x1024, .f32⟩
  | 16 => ⟨S3x8x1024x1024, .f32⟩
  | 17 => ⟨S3x8x1024x1024, .f32⟩
  | 18 => ⟨S_, .f32⟩
  | 19 => ⟨S8x1024x1024, .f32⟩
  | 20 => ⟨S8x1024x1024, .f32⟩
  | 21 => ⟨S8x1024x1024, .f32⟩
  | 22 => ⟨S8x1024x1024, .f32⟩
  | 23 => ⟨S_, .i32⟩
  | 24 => ⟨S8x1024x1024, .i32⟩
  | 25 => ⟨S8x1024x1024, .i32⟩
  | 26 => ⟨S_, .i32⟩
  | 27 => ⟨S8x1024x1024, .i32⟩
  | 28 => ⟨S8x1024x1024, .i32⟩
  | 29 => ⟨S_, .i32⟩
  | 30 => ⟨S8x1024x1024, .i32⟩
  | 31 => ⟨S8x1024x1024, .i32⟩
  | 32 => ⟨S_, .i32⟩
  | 33 => ⟨S8x1024x1024, .i32⟩
  | 34 => ⟨S8x1024x1024, .i1⟩
  | 35 => ⟨S_, .i32⟩
  | 36 => ⟨S8x1024x1024, .i32⟩
  | 37 => ⟨S8x1024x1024, .i32⟩
  | 38 => ⟨S8x1024x1024, .i32⟩
  | 39 => ⟨S_, .i32⟩
  | 40 => ⟨S8x1024x1024, .i32⟩
  | 41 => ⟨S8x1024x1024, .i1⟩
  | 42 => ⟨S_, .i32⟩
  | 43 => ⟨S8x1024x1024, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i1⟩
  | 49 => ⟨S_, .i32⟩
  | 50 => ⟨S8x1024x1024, .i32⟩
  | 51 => ⟨S8x1024x1024, .i32⟩
  | 52 => ⟨S8x1024x1024, .i32⟩
  | 53 => ⟨S8x1024x1024x1, .i32⟩
  | 54 => ⟨S8x1024x1024x1, .i32⟩
  | 55 => ⟨S8x1024x1024x1, .i32⟩
  | 56 => ⟨S8x1024x1024x3, .i32⟩
  | 57 => ⟨S3x8x1024x1024, .f32⟩
  | 58 => ⟨S1x8x1024x1024, .f32⟩
  | 59 => ⟨S3x8x1024x1024, .f32⟩
  | 60 => ⟨S3x8x1024x1024, .f32⟩
  | 61 => ⟨S3x8x1024x1024, .f32⟩
  | 62 => ⟨S8x1024x1024, .f32⟩
  | 63 => ⟨S8x1024x1024, .f32⟩
  | 64 => ⟨S_, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i32⟩
  | 70 => ⟨S_, .i32⟩
  | 71 => ⟨S8x1024x1024, .i32⟩
  | 72 => ⟨S8x1024x1024, .i32⟩
  | 73 => ⟨S_, .i32⟩
  | 74 => ⟨S8x1024x1024, .i32⟩
  | 75 => ⟨S8x1024x1024, .i1⟩
  | 76 => ⟨S_, .i32⟩
  | 77 => ⟨S8x1024x1024, .i32⟩
  | 78 => ⟨S8x1024x1024, .i32⟩
  | 79 => ⟨S8x1024x1024, .i32⟩
  | 80 => ⟨S_, .i32⟩
  | 81 => ⟨S8x1024x1024, .i32⟩
  | 82 => ⟨S8x1024x1024, .i1⟩
  | 83 => ⟨S_, .i32⟩
  | 84 => ⟨S8x1024x1024, .i32⟩
  | 85 => ⟨S8x1024x1024, .i32⟩
  | 86 => ⟨S8x1024x1024, .i32⟩
  | 87 => ⟨S_, .i32⟩
  | 88 => ⟨S8x1024x1024, .i32⟩
  | 89 => ⟨S8x1024x1024, .i1⟩
  | 90 => ⟨S_, .i32⟩
  | 91 => ⟨S8x1024x1024, .i32⟩
  | 92 => ⟨S8x1024x1024, .i32⟩
  | 93 => ⟨S8x1024x1024, .i32⟩
  | 94 => ⟨S8x1024x1024x1, .i32⟩
  | 95 => ⟨S8x1024x1024x1, .i32⟩
  | 96 => ⟨S8x1024x1024x1, .i32⟩
  | 97 => ⟨S8x1024x1024x3, .i32⟩
  | 98 => ⟨S3x8x1024x1024, .f32⟩
  | 99 => ⟨S1x8x1024x1024, .f32⟩
  | 100 => ⟨S3x8x1024x1024, .f32⟩
  | 101 => ⟨S3x8x1024x1024, .f32⟩
  | 102 => ⟨S3x8x1024x1024, .f32⟩
  | 103 => ⟨S_, .f32⟩
  | 104 => ⟨S8x1024x1024, .f32⟩
  | 105 => ⟨S8x1024x1024, .f32⟩
  | 106 => ⟨S_, .f32⟩
  | 107 => ⟨S8x1024x1024, .f32⟩
  | 108 => ⟨S8x1024x1024, .f32⟩
  | 109 => ⟨S8x1024x1024, .f32⟩
  | 110 => ⟨S8x1024x1024, .f32⟩
  | 111 => ⟨S_, .i32⟩
  | 112 => ⟨S8x1024x1024, .i32⟩
  | 113 => ⟨S8x1024x1024, .i32⟩
  | 114 => ⟨S_, .i32⟩
  | 115 => ⟨S8x1024x1024, .i32⟩
  | 116 => ⟨S8x1024x1024, .i32⟩
  | 117 => ⟨S_, .i32⟩
  | 118 => ⟨S8x1024x1024, .i32⟩
  | 119 => ⟨S8x1024x1024, .i32⟩
  | 120 => ⟨S_, .i32⟩
  | 121 => ⟨S8x1024x1024, .i32⟩
  | 122 => ⟨S8x1024x1024, .i1⟩
  | 123 => ⟨S_, .i32⟩
  | 124 => ⟨S8x1024x1024, .i32⟩
  | 125 => ⟨S8x1024x1024, .i32⟩
  | 126 => ⟨S8x1024x1024, .i32⟩
  | 127 => ⟨S_, .i32⟩
  | _ => ⟨S3x33x33x33, .f32⟩

abbrev hbmTy0_2 (i : Nat) : BufTy := match i % 128 with
  | 0 => ⟨S8x1024x1024, .i32⟩
  | 1 => ⟨S8x1024x1024, .i1⟩
  | 2 => ⟨S_, .i32⟩
  | 3 => ⟨S8x1024x1024, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i1⟩
  | 9 => ⟨S_, .i32⟩
  | 10 => ⟨S8x1024x1024, .i32⟩
  | 11 => ⟨S8x1024x1024, .i32⟩
  | 12 => ⟨S8x1024x1024, .i32⟩
  | 13 => ⟨S8x1024x1024x1, .i32⟩
  | 14 => ⟨S8x1024x1024x1, .i32⟩
  | 15 => ⟨S8x1024x1024x1, .i32⟩
  | 16 => ⟨S8x1024x1024x3, .i32⟩
  | 17 => ⟨S3x8x1024x1024, .f32⟩
  | 18 => ⟨S1x8x1024x1024, .f32⟩
  | 19 => ⟨S3x8x1024x1024, .f32⟩
  | 20 => ⟨S3x8x1024x1024, .f32⟩
  | 21 => ⟨S3x8x1024x1024, .f32⟩
  | 22 => ⟨S8x1024x1024, .f32⟩
  | 23 => ⟨S8x1024x1024, .f32⟩
  | 24 => ⟨S_, .i32⟩
  | 25 => ⟨S8x1024x1024, .i32⟩
  | 26 => ⟨S8x1024x1024, .i32⟩
  | 27 => ⟨S_, .i32⟩
  | 28 => ⟨S8x1024x1024, .i32⟩
  | 29 => ⟨S8x1024x1024, .i32⟩
  | 30 => ⟨S_, .i32⟩
  | 31 => ⟨S8x1024x1024, .i32⟩
  | 32 => ⟨S8x1024x1024, .i32⟩
  | 33 => ⟨S_, .i32⟩
  | 34 => ⟨S8x1024x1024, .i32⟩
  | 35 => ⟨S8x1024x1024, .i1⟩
  | 36 => ⟨S_, .i32⟩
  | 37 => ⟨S8x1024x1024, .i32⟩
  | 38 => ⟨S8x1024x1024, .i32⟩
  | 39 => ⟨S8x1024x1024, .i32⟩
  | 40 => ⟨S_, .i32⟩
  | 41 => ⟨S8x1024x1024, .i32⟩
  | 42 => ⟨S8x1024x1024, .i1⟩
  | 43 => ⟨S_, .i32⟩
  | 44 => ⟨S8x1024x1024, .i32⟩
  | 45 => ⟨S8x1024x1024, .i32⟩
  | 46 => ⟨S8x1024x1024, .i32⟩
  | 47 => ⟨S_, .i32⟩
  | 48 => ⟨S8x1024x1024, .i32⟩
  | 49 => ⟨S8x1024x1024, .i1⟩
  | 50 => ⟨S_, .i32⟩
  | 51 => ⟨S8x1024x1024, .i32⟩
  | 52 => ⟨S8x1024x1024, .i32⟩
  | 53 => ⟨S8x1024x1024, .i32⟩
  | 54 => ⟨S8x1024x1024x1, .i32⟩
  | 55 => ⟨S8x1024x1024x1, .i32⟩
  | 56 => ⟨S8x1024x1024x1, .i32⟩
  | 57 => ⟨S8x1024x1024x3, .i32⟩
  | 58 => ⟨S3x8x1024x1024, .f32⟩
  | 59 => ⟨S1x8x1024x1024, .f32⟩
  | 60 => ⟨S3x8x1024x1024, .f32⟩
  | 61 => ⟨S3x8x1024x1024, .f32⟩
  | 62 => ⟨S3x8x1024x1024, .f32⟩
  | 63 => ⟨S_, .f32⟩
  | 64 => ⟨S8x1024x1024, .f32⟩
  | 65 => ⟨S8x1024x1024, .f32⟩
  | 66 => ⟨S8x1024x1024, .f32⟩
  | 67 => ⟨S8x1024x1024, .f32⟩
  | 68 => ⟨S_, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i32⟩
  | 74 => ⟨S_, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i1⟩
  | 80 => ⟨S_, .i32⟩
  | 81 => ⟨S8x1024x1024, .i32⟩
  | 82 => ⟨S8x1024x1024, .i32⟩
  | 83 => ⟨S8x1024x1024, .i32⟩
  | 84 => ⟨S_, .i32⟩
  | 85 => ⟨S8x1024x1024, .i32⟩
  | 86 => ⟨S8x1024x1024, .i1⟩
  | 87 => ⟨S_, .i32⟩
  | 88 => ⟨S8x1024x1024, .i32⟩
  | 89 => ⟨S8x1024x1024, .i32⟩
  | 90 => ⟨S8x1024x1024, .i32⟩
  | 91 => ⟨S_, .i32⟩
  | 92 => ⟨S8x1024x1024, .i32⟩
  | 93 => ⟨S8x1024x1024, .i1⟩
  | 94 => ⟨S_, .i32⟩
  | 95 => ⟨S8x1024x1024, .i32⟩
  | 96 => ⟨S8x1024x1024, .i32⟩
  | 97 => ⟨S8x1024x1024, .i32⟩
  | 98 => ⟨S8x1024x1024x1, .i32⟩
  | 99 => ⟨S8x1024x1024x1, .i32⟩
  | 100 => ⟨S8x1024x1024x1, .i32⟩
  | 101 => ⟨S8x1024x1024x3, .i32⟩
  | 102 => ⟨S3x8x1024x1024, .f32⟩
  | 103 => ⟨S1x8x1024x1024, .f32⟩
  | 104 => ⟨S3x8x1024x1024, .f32⟩
  | 105 => ⟨S3x8x1024x1024, .f32⟩
  | 106 => ⟨S3x8x1024x1024, .f32⟩
  | 107 => ⟨S8x1024x1024, .f32⟩
  | 108 => ⟨S8x1024x1024, .f32⟩
  | 109 => ⟨S_, .i32⟩
  | 110 => ⟨S8x1024x1024, .i32⟩
  | 111 => ⟨S8x1024x1024, .i32⟩
  | 112 => ⟨S_, .i32⟩
  | 113 => ⟨S8x1024x1024, .i32⟩
  | 114 => ⟨S8x1024x1024, .i32⟩
  | 115 => ⟨S_, .i32⟩
  | 116 => ⟨S8x1024x1024, .i32⟩
  | 117 => ⟨S8x1024x1024, .i32⟩
  | 118 => ⟨S_, .i32⟩
  | 119 => ⟨S8x1024x1024, .i32⟩
  | 120 => ⟨S8x1024x1024, .i1⟩
  | 121 => ⟨S_, .i32⟩
  | 122 => ⟨S8x1024x1024, .i32⟩
  | 123 => ⟨S8x1024x1024, .i32⟩
  | 124 => ⟨S8x1024x1024, .i32⟩
  | 125 => ⟨S_, .i32⟩
  | 126 => ⟨S8x1024x1024, .i32⟩
  | 127 => ⟨S8x1024x1024, .i1⟩
  | _ => ⟨S3x33x33x33, .f32⟩

abbrev hbmTy0_3 (i : Nat) : BufTy := match i % 128 with
  | 0 => ⟨S_, .i32⟩
  | 1 => ⟨S8x1024x1024, .i32⟩
  | 2 => ⟨S8x1024x1024, .i32⟩
  | 3 => ⟨S8x1024x1024, .i32⟩
  | 4 => ⟨S_, .i32⟩
  | 5 => ⟨S8x1024x1024, .i32⟩
  | 6 => ⟨S8x1024x1024, .i1⟩
  | 7 => ⟨S_, .i32⟩
  | 8 => ⟨S8x1024x1024, .i32⟩
  | 9 => ⟨S8x1024x1024, .i32⟩
  | 10 => ⟨S8x1024x1024, .i32⟩
  | 11 => ⟨S8x1024x1024x1, .i32⟩
  | 12 => ⟨S8x1024x1024x1, .i32⟩
  | 13 => ⟨S8x1024x1024x1, .i32⟩
  | 14 => ⟨S8x1024x1024x3, .i32⟩
  | 15 => ⟨S3x8x1024x1024, .f32⟩
  | 16 => ⟨S1x8x1024x1024, .f32⟩
  | 17 => ⟨S3x8x1024x1024, .f32⟩
  | 18 => ⟨S3x8x1024x1024, .f32⟩
  | 19 => ⟨S3x8x1024x1024, .f32⟩
  | 20 => ⟨S8x3x1024x1024, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_cst_8 : Ref sig .tc := ⟨.hbm, 55, rfl⟩
abbrev main_v28 : Ref sig .tc := ⟨.hbm, 56, rfl⟩
abbrev main_v29 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_11 : Ref sig .tc := ⟨.hbm, 66, rfl⟩
abbrev main_v36 : Ref sig .tc := ⟨.hbm, 67, rfl⟩
abbrev main_v37 : Ref sig .tc := ⟨.hbm, 68, rfl⟩
abbrev main_c_12 : Ref sig .tc := ⟨.hbm, 69, rfl⟩
abbrev main_v38 : Ref sig .tc := ⟨.hbm, 70, rfl⟩
abbrev main_v39 : Ref sig .tc := ⟨.hbm, 71, rfl⟩
abbrev main_c_13 : Ref sig .tc := ⟨.hbm, 72, rfl⟩
abbrev main_v40 : Ref sig .tc := ⟨.hbm, 73, rfl⟩
abbrev main_v41 : Ref sig .tc := ⟨.hbm, 74, rfl⟩
abbrev main_c_14 : Ref sig .tc := ⟨.hbm, 75, rfl⟩
abbrev main_v42 : Ref sig .tc := ⟨.hbm, 76, rfl⟩
abbrev main_v43 : Ref sig .tc := ⟨.hbm, 77, rfl⟩
abbrev main_c_15 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_16 : Ref sig .tc := ⟨.hbm, 82, rfl⟩
abbrev main_v47 : Ref sig .tc := ⟨.hbm, 83, rfl⟩
abbrev main_v48 : Ref sig .tc := ⟨.hbm, 84, rfl⟩
abbrev main_c_17 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_18 : Ref sig .tc := ⟨.hbm, 89, rfl⟩
abbrev main_v52 : Ref sig .tc := ⟨.hbm, 90, rfl⟩
abbrev main_v53 : Ref sig .tc := ⟨.hbm, 91, rfl⟩
abbrev main_c_19 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_20 : Ref sig .tc := ⟨.hbm, 107, rfl⟩
abbrev main_v68 : Ref sig .tc := ⟨.hbm, 108, rfl⟩
abbrev main_v69 : Ref sig .tc := ⟨.hbm, 109, rfl⟩
abbrev main_c_21 : Ref sig .tc := ⟨.hbm, 110, rfl⟩
abbrev main_v70 : Ref sig .tc := ⟨.hbm, 111, rfl⟩
abbrev main_v71 : Ref sig .tc := ⟨.hbm, 112, rfl⟩
abbrev main_c_22 : Ref sig .tc := ⟨.hbm, 113, rfl⟩
abbrev main_v72 : Ref sig .tc := ⟨.hbm, 114, rfl⟩
abbrev main_v73 : Ref sig .tc := ⟨.hbm, 115, rfl⟩
abbrev main_c_23 : Ref sig .tc := ⟨.hbm, 116, rfl⟩
abbrev main_v74 : Ref sig .tc := ⟨.hbm, 117, rfl⟩
abbrev main_v75 : Ref sig .tc := ⟨.hbm, 118, rfl⟩
abbrev main_c_24 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_25 : Ref sig .tc := ⟨.hbm, 123, rfl⟩
abbrev main_v79 : Ref sig .tc := ⟨.hbm, 124, rfl⟩
abbrev main_v80 : Ref sig .tc := ⟨.hbm, 125, rfl⟩
abbrev main_c_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_27 : Ref sig .tc := ⟨.hbm, 130, rfl⟩
abbrev main_v84 : Ref sig .tc := ⟨.hbm, 131, rfl⟩
abbrev main_v85 : Ref sig .tc := ⟨.hbm, 132, rfl⟩
abbrev main_c_28 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_29 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_30 : Ref sig .tc := ⟨.hbm, 151, rfl⟩
abbrev main_v102 : Ref sig .tc := ⟨.hbm, 152, rfl⟩
abbrev main_v103 : Ref sig .tc := ⟨.hbm, 153, rfl⟩
abbrev main_c_31 : Ref sig .tc := ⟨.hbm, 154, rfl⟩
abbrev main_v104 : Ref sig .tc := ⟨.hbm, 155, rfl⟩
abbrev main_v105 : Ref sig .tc := ⟨.hbm, 156, rfl⟩
abbrev main_c_32 : Ref sig .tc := ⟨.hbm, 157, rfl⟩
abbrev main_v106 : Ref sig .tc := ⟨.hbm, 158, rfl⟩
abbrev main_v107 : Ref sig .tc := ⟨.hbm, 159, rfl⟩
abbrev main_c_33 : Ref sig .tc := ⟨.hbm, 160, rfl⟩
abbrev main_v108 : Ref sig .tc := ⟨.hbm, 161, rfl⟩
abbrev main_v109 : Ref sig .tc := ⟨.hbm, 162, rfl⟩
abbrev main_c_34 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_35 : Ref sig .tc := ⟨.hbm, 167, rfl⟩
abbrev main_v113 : Ref sig .tc := ⟨.hbm, 168, rfl⟩
abbrev main_v114 : Ref sig .tc := ⟨.hbm, 169, rfl⟩
abbrev main_c_36 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_c_37 : Ref sig .tc := ⟨.hbm, 174, rfl⟩
abbrev main_v118 : Ref sig .tc := ⟨.hbm, 175, rfl⟩
abbrev main_v119 : Ref sig .tc := ⟨.hbm, 176, rfl⟩
abbrev main_c_38 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_c_39 : Ref sig .tc := ⟨.hbm, 192, rfl⟩
abbrev main_v134 : Ref sig .tc := ⟨.hbm, 193, rfl⟩
abbrev main_v135 : Ref sig .tc := ⟨.hbm, 194, rfl⟩
abbrev main_c_40 : Ref sig .tc := ⟨.hbm, 195, rfl⟩
abbrev main_v136 : Ref sig .tc := ⟨.hbm, 196, rfl⟩
abbrev main_v137 : Ref sig .tc := ⟨.hbm, 197, rfl⟩
abbrev main_c_41 : Ref sig .tc := ⟨.hbm, 198, rfl⟩
abbrev main_v138 : Ref sig .tc := ⟨.hbm, 199, rfl⟩
abbrev main_v139 : Ref sig .tc := ⟨.hbm, 200, rfl⟩
abbrev main_c_42 : Ref sig .tc := ⟨.hbm, 201, rfl⟩
abbrev main_v140 : Ref sig .tc := ⟨.hbm, 202, rfl⟩
abbrev main_v141 : Ref sig .tc := ⟨.hbm, 203, rfl⟩
abbrev main_c_43 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_44 : Ref sig .tc := ⟨.hbm, 208, rfl⟩
abbrev main_v145 : Ref sig .tc := ⟨.hbm, 209, rfl⟩
abbrev main_v146 : Ref sig .tc := ⟨.hbm, 210, rfl⟩
abbrev main_c_45 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_46 : Ref sig .tc := ⟨.hbm, 215, rfl⟩
abbrev main_v150 : Ref sig .tc := ⟨.hbm, 216, rfl⟩
abbrev main_v151 : Ref sig .tc := ⟨.hbm, 217, rfl⟩
abbrev main_c_47 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_cst_48 : Ref sig .tc := ⟨.hbm, 231, rfl⟩
abbrev main_v164 : Ref sig .tc := ⟨.hbm, 232, rfl⟩
abbrev main_v165 : Ref sig .tc := ⟨.hbm, 233, rfl⟩
abbrev main_cst_49 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_c_50 : Ref sig .tc := ⟨.hbm, 239, rfl⟩
abbrev main_v170 : Ref sig .tc := ⟨.hbm, 240, rfl⟩
abbrev main_v171 : Ref sig .tc := ⟨.hbm, 241, rfl⟩
abbrev main_c_51 : Ref sig .tc := ⟨.hbm, 242, rfl⟩
abbrev main_v172 : Ref sig .tc := ⟨.hbm, 243, rfl⟩
abbrev main_v173 : Ref sig .tc := ⟨.hbm, 244, rfl⟩
abbrev main_c_52 : Ref sig .tc := ⟨.hbm, 245, rfl⟩
abbrev main_v174 : Ref sig .tc := ⟨.hbm, 246, rfl⟩
abbrev main_v175 : Ref sig .tc := ⟨.hbm, 247, rfl⟩
abbrev main_c_53 : Ref sig .tc := ⟨.hbm, 248, rfl⟩
abbrev main_v176 : Ref sig .tc := ⟨.hbm, 249, rfl⟩
abbrev main_v177 : Ref sig .tc := ⟨.hbm, 250, rfl⟩
abbrev main_c_54 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_c_55 : Ref sig .tc := ⟨.hbm, 255, rfl⟩
abbrev main_v181 : Ref sig .tc := ⟨.hbm, 256, rfl⟩
abbrev main_v182 : Ref sig .tc := ⟨.hbm, 257, rfl⟩
abbrev main_c_56 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_c_57 : Ref sig .tc := ⟨.hbm, 262, rfl⟩
abbrev main_v186 : Ref sig .tc := ⟨.hbm, 263, rfl⟩
abbrev main_v187 : Ref sig .tc := ⟨.hbm, 264, rfl⟩
abbrev main_c_58 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_c_59 : Ref sig .tc := ⟨.hbm, 280, rfl⟩
abbrev main_v202 : Ref sig .tc := ⟨.hbm, 281, rfl⟩
abbrev main_v203 : Ref sig .tc := ⟨.hbm, 282, rfl⟩
abbrev main_c_60 : Ref sig .tc := ⟨.hbm, 283, rfl⟩
abbrev main_v204 : Ref sig .tc := ⟨.hbm, 284, rfl⟩
abbrev main_v205 : Ref sig .tc := ⟨.hbm, 285, rfl⟩
abbrev main_c_61 : Ref sig .tc := ⟨.hbm, 286, rfl⟩
abbrev main_v206 : Ref sig .tc := ⟨.hbm, 287, rfl⟩
abbrev main_v207 : Ref sig .tc := ⟨.hbm, 288, rfl⟩
abbrev main_c_62 : Ref sig .tc := ⟨.hbm, 289, rfl⟩
abbrev main_v208 : Ref sig .tc := ⟨.hbm, 290, rfl⟩
abbrev main_v209 : Ref sig .tc := ⟨.hbm, 291, rfl⟩
abbrev main_c_63 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_c_64 : Ref sig .tc := ⟨.hbm, 296, rfl⟩
abbrev main_v213 : Ref sig .tc := ⟨.hbm, 297, rfl⟩
abbrev main_v214 : Ref sig .tc := ⟨.hbm, 298, rfl⟩
abbrev main_c_65 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_c_66 : Ref sig .tc := ⟨.hbm, 303, rfl⟩
abbrev main_v218 : Ref sig .tc := ⟨.hbm, 304, rfl⟩
abbrev main_v219 : Ref sig .tc := ⟨.hbm, 305, rfl⟩
abbrev main_c_67 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_cst_68 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_c_69 : Ref sig .tc := ⟨.hbm, 324, rfl⟩
abbrev main_v236 : Ref sig .tc := ⟨.hbm, 325, rfl⟩
abbrev main_v237 : Ref sig .tc := ⟨.hbm, 326, rfl⟩
abbrev main_c_70 : Ref sig .tc := ⟨.hbm, 327, rfl⟩
abbrev main_v238 : Ref sig .tc := ⟨.hbm, 328, rfl⟩
abbrev main_v239 : Ref sig .tc := ⟨.hbm, 329, rfl⟩
abbrev main_c_71 : Ref sig .tc := ⟨.hbm, 330, rfl⟩
abbrev main_v240 : Ref sig .tc := ⟨.hbm, 331, rfl⟩
abbrev main_v241 : Ref sig .tc := ⟨.hbm, 332, rfl⟩
abbrev main_c_72 : Ref sig .tc := ⟨.hbm, 333, rfl⟩
abbrev main_v242 : Ref sig .tc := ⟨.hbm, 334, rfl⟩
abbrev main_v243 : Ref sig .tc := ⟨.hbm, 335, rfl⟩
abbrev main_c_73 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_c_74 : Ref sig .tc := ⟨.hbm, 340, rfl⟩
abbrev main_v247 : Ref sig .tc := ⟨.hbm, 341, rfl⟩
abbrev main_v248 : Ref sig .tc := ⟨.hbm, 342, rfl⟩
abbrev main_c_75 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_c_76 : Ref sig .tc := ⟨.hbm, 347, rfl⟩
abbrev main_v252 : Ref sig .tc := ⟨.hbm, 348, rfl⟩
abbrev main_v253 : Ref sig .tc := ⟨.hbm, 349, rfl⟩
abbrev main_c_77 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_c_78 : Ref sig .tc := ⟨.hbm, 365, rfl⟩
abbrev main_v268 : Ref sig .tc := ⟨.hbm, 366, rfl⟩
abbrev main_v269 : Ref sig .tc := ⟨.hbm, 367, rfl⟩
abbrev main_c_79 : Ref sig .tc := ⟨.hbm, 368, rfl⟩
abbrev main_v270 : Ref sig .tc := ⟨.hbm, 369, rfl⟩
abbrev main_v271 : Ref sig .tc := ⟨.hbm, 370, rfl⟩
abbrev main_c_80 : Ref sig .tc := ⟨.hbm, 371, rfl⟩
abbrev main_v272 : Ref sig .tc := ⟨.hbm, 372, rfl⟩
abbrev main_v273 : Ref sig .tc := ⟨.hbm, 373, rfl⟩
abbrev main_c_81 : Ref sig .tc := ⟨.hbm, 374, rfl⟩
abbrev main_v274 : Ref sig .tc := ⟨.hbm, 375, rfl⟩
abbrev main_v275 : Ref sig .tc := ⟨.hbm, 376, rfl⟩
abbrev main_c_82 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_c_83 : Ref sig .tc := ⟨.hbm, 381, rfl⟩
abbrev main_v279 : Ref sig .tc := ⟨.hbm, 382, rfl⟩
abbrev main_v280 : Ref sig .tc := ⟨.hbm, 383, rfl⟩
abbrev main_c_84 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_c_85 : Ref sig .tc := ⟨.hbm, 388, rfl⟩
abbrev main_v284 : Ref sig .tc := ⟨.hbm, 389, rfl⟩
abbrev main_v285 : Ref sig .tc := ⟨.hbm, 390, rfl⟩
abbrev main_c_86 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  bcast_S_S3x8x1024x1024 : S_.BroadcastsInDim S3x8x1024x1024 (![] : Fin 0 → Fin S3x8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x3_d3 : Shape.Concatenates [S8x1024x1024x1, S8x1024x1024x1, S8x1024x1024x1] S8x1024x1024x3 3
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x33x33x33_S8x1024x1024x3_S3x8x1024x1024_0_123_n_n_123_3_3111_wf : GatherDims.WF S3x33x33x33 S8x1024x1024x3 S3x8x1024x1024 [0] [1, 2, 3] [] [1, 2, 3] [] 3 ![3, 1, 1, 1]

variable [Facts₀]

def gather_S3x33x33x33_S8x1024x1024x3_S3x8x1024x1024_0_123_n_n_123_3_3111 : GatherDims S3x33x33x33 S8x1024x1024x3 S3x8x1024x1024 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S8x1024x1024x3_S3x8x1024x1024_0_123_n_n_123_3_3111_wf

class Facts : Prop extends Facts₀ where

variable [Facts]
-- ==== Proof.Spec.lean ====
import Idealize.ShloMosaic.PureOps
import Idealize.ShloMosaic.PureOps.Ideal
import Idealize.ShloMosaic.Lib.ValueIdx

noncomputable section

namespace Cert.Lut

open Idealize.ShloMosaic Idealize.ShloMosaic.ValueIdx

abbrev S0 : Shape := ⟨0, ![]⟩
abbrev SX : Shape := ⟨4, ![8, 3, 1024, 1024]⟩
abbrev SX1 : Shape := ⟨4, ![8, 1, 1024, 1024]⟩
abbrev SP : Shape := ⟨3, ![8, 1024, 1024]⟩
abbrev SP1 : Shape := ⟨4, ![8, 1024, 1024, 1]⟩
abbrev SP3 : Shape := ⟨4, ![8, 1024, 1024, 3]⟩
abbrev SL : Shape := ⟨4, ![3, 33, 33, 33]⟩
abbrev SLf : Shape := ⟨2, ![3, 35937]⟩
abbrev SC : Shape := ⟨4, ![3, 8, 1024, 1024]⟩
abbrev SC1 : Shape := ⟨4, ![1, 8, 1024, 1024]⟩

theorem slicesX (k : Fin 3) : SX.Slices ![0, k.val, 0, 0] SX1 := by fin_cases k <;> decide
theorem castsX1 : SX1.ShapeCasts SP := by decide
theorem bc0P : S0.BroadcastsInDim SP (![] : Fin 0 → Fin SP.rank) := by decide
theorem bc0C : S0.BroadcastsInDim SC (![] : Fin 0 → Fin SC.rank) := by decide
theorem bcPP1 : SP.BroadcastsInDim SP1 (![0, 1, 2] : Fin 3 → Fin SP1.rank) := by decide
theorem bcPC1 : SP.BroadcastsInDim SC1 (![1, 2, 3] : Fin 3 → Fin SC1.rank) := by decide
theorem bcC1C : SC1.BroadcastsInDim SC (![0, 1, 2, 3] : Fin 4 → Fin SC.rank) := by decide
theorem castsL : SL.ShapeCasts SLf := by decide
theorem concats3 : Shape.Concatenates [SP1, SP1, SP1] SP3 3 := by decide
theorem transposesC : SC.Transposes [1, 0, 2, 3] SX := by decide

def gdFlat : GatherDims SLf SP1 SC where
  offsetDims := [0]
  collapsedSliceDims := [1]
  operandBatchingDims := []
  startIndicesBatchingDims := []
  startIndexMap := [1]
  indexVectorDim := 3
  sliceSizes := ![3, 1]
  wf := by decide

def gdCube : GatherDims SL SP3 SC where
  offsetDims := [0]
  collapsedSliceDims := [1, 2, 3]
  operandBatchingDims := []
  startIndicesBatchingDims := []
  startIndexMap := [1, 2, 3]
  indexVectorDim := 3
  sliceSizes := ![3, 1, 1, 1]
  wf := by decide

variable {F : FTy → Type} [FloatOps F]

/-- Colour channel `k` of every pixel, in units of the bin width 1/32. -/
def frac (k : Fin 3) (x : FVec F SX .f32) : FVec F SP .f32 :=
  Host.divf (shapeCast SP (extractStridedSlice SX1 ![0, k.val, 0, 0] x (slicesX k)) castsX1)
    (broadcastInDim SP ![] bc0P (constant S0 .f32 0x3D000000#32))

/-- The bin a pixel falls in along channel `k`: the floor of `frac`, kept within 0 … 31 so that the next bin exists. -/
def cell (k : Fin 3) (x : FVec F SX .f32) : IVec SP 32 :=
  minsi (broadcastInDim SP ![] bc0P (constantI S0 32 31#32))
    (maxsi (broadcastInDim SP ![] bc0P (constantI S0 32 0#32)) (fptosi 32 (Host.floor (frac k x))))

/-- How far into its bin the pixel lies along channel `k`. -/
def off (k : Fin 3) (x : FVec F SX .f32) : FVec F SP .f32 :=
  subf (frac k x) (sitofp .f32 (cell k x))

/-- The table with its three lattice axes merged, b outermost. -/
def flatTable (L : FVec F SL .f32) : FVec F SLf .f32 := shapeCast SLf L castsL

/-- Where the cell's lowest corner sits on the merged axis: 33² · bid + 33 · gid + rid. -/
def basePos (rid gid bid : IVec SP 32) : IVec SP 32 :=
  addi (addi (muli bid (broadcastInDim SP ![] bc0P (constantI S0 32 1089#32)))
    (muli gid (broadcastInDim SP ![] bc0P (constantI S0 32 33#32)))) rid

/-- Negative indices count from the end: `n` is added to them. -/
def wrapNeg (n : BitVec 32) (i : IVec SP 32) : IVec SP 32 :=
  select (cmpi .slt i (broadcastInDim SP ![] bc0P (constantI S0 32 0#32)))
    (addi i (broadcastInDim SP ![] bc0P (constantI S0 32 n))) i

/-- The table read on the merged axis at the lowest corner's position plus `k`. -/
def flatCorner (Lf : FVec F SLf .f32) (base : IVec SP 32) (k : BitVec 32) : FVec F SC .f32 :=
  Host.gather gdFlat Lf
    (broadcastInDim SP1 ![0, 1, 2] bcPP1 (wrapNeg 35937#32 (addi base (broadcastInDim SP ![] bc0P (constantI S0 32 k)))))

/-- The same per-pixel weight for each of the three output channels. -/
def overChannels (w : FVec F SP .f32) : FVec F SC .f32 :=
  broadcastInDim SC ![0, 1, 2, 3] bcC1C (broadcastInDim SC1 ![1, 2, 3] bcPC1 w)

/-- (1 - w) · a + w · b, pixel by pixel. -/
def lerp (w : FVec F SP .f32) (a b : FVec F SC .f32) : FVec F SC .f32 :=
  addf (mulf (overChannels (subf (broadcastInDim SP ![] bc0P (constant S0 .f32 0x3F800000#32)) w)) a)
    (mulf (overChannels w) b)

/-- One b-face of the cell: interpolated along r within each g-edge, then along g. -/
def side (Lf : FVec F SLf .f32) (base : IVec SP 32) (rd gd : FVec F SP .f32) (k00 k01 k10 k11 : BitVec 32) :
    FVec F SC .f32 :=
  lerp gd (lerp rd (flatCorner Lf base k00) (flatCorner Lf base k01))
    (lerp rd (flatCorner Lf base k10) (flatCorner Lf base k11))

/-- The two b-faces interpolated along b, with the batch axis moved in front of the channel axis. -/
def combine (c0 c1 : FVec F SC .f32) (bd : FVec F SP .f32) : FVec F SX .f32 := fun i =>
  FloatOps.addf
    (FloatOps.mulf (FloatOps.subf (FloatOps.ofBits .f32 0x3F800000#32) (bd (ix3 (i 0) (i 2) (i 3)))) (c0 (ix4 (i 1) (i 0) (i 2) (i 3))))
    (FloatOps.mulf (bd (ix3 (i 0) (i 2) (i 3))) (c1 (ix4 (i 1) (i 0) (i 2) (i 3))))

/-- One lattice coordinate per pixel, as a gather start index. -/
def startIdx (i : IVec SP 32) : IVec SP1 32 := broadcastInDim SP1 ![0, 1, 2] bcPP1 (wrapNeg 33#32 i)

/-- The three lattice coordinates of a pixel side by side. -/
def startIdx3 (ib ig ir : IVec SP 32) : IVec SP3 32 :=
  concatenate SP3 3 [⟨SP1, startIdx ib⟩, ⟨SP1, startIdx ig⟩, ⟨SP1, startIdx ir⟩] concats3

/-- The table read at lattice coordinates (ib, ig, ir), for every channel and pixel. -/
def cubeCorner (L : FVec F SL .f32) (ib ig ir : IVec SP 32) : FVec F SC .f32 :=
  Host.gather gdCube L (startIdx3 ib ig ir)

/-- A bin number moved by `d`. -/
def stepBy (i : IVec SP 32) (d : BitVec 32) : IVec SP 32 :=
  addi i (broadcastInDim SP ![] bc0P (constantI S0 32 d))

/-- 1 - u, pixel by pixel. -/
def comp (u : FVec F SP .f32) : FVec F SP .f32 :=
  subf (broadcastInDim SP ![] bc0P (constant S0 .f32 0x3F800000#32)) u

/-- A table corner times the product of its three one-dimensional weights. -/
def term (wr wg wb : FVec F SP .f32) (G : FVec F SC .f32) : FVec F SC .f32 :=
  mulf (overChannels (mulf (mulf wr wg) wb)) G

section
variable (L : FVec F SL .f32) (x : FVec F SX .f32)

/-- The corner of the pixel's cell reached by `db`, `dg`, `dr` steps along b, g, r. -/
def corner (db dg dr : BitVec 32) : FVec F SC .f32 :=
  cubeCorner L (stepBy (cell 2 x) db) (stepBy (cell 1 x) dg) (stepBy (cell 0 x) dr)

/-- `accJ`: the sum of the first `J` weighted corners, r varying fastest, started from zero. -/
def acc1 : FVec F SC .f32 :=
  addf (broadcastInDim SC ![] bc0C (constant S0 .f32 0x00000000#32)) (term (comp (off 0 x)) (comp (off 1 x)) (comp (off 2 x)) (corner L x 0#32 0#32 0#32))
def acc2 : FVec F SC .f32 :=
  addf (acc1 L x) (term (off 0 x) (comp (off 1 x)) (comp (off 2 x)) (corner L x 0#32 0#32 1#32))
def acc3 : FVec F SC .f32 :=
  addf (acc2 L x) (term (comp (off 0 x)) (off 1 x) (comp (off 2 x)) (corner L x 0#32 1#32 0#32))
def acc4 : FVec F SC .f32 :=
  addf (acc3 L x) (term (off 0 x) (off 1 x) (comp (off 2 x)) (corner L x 0#32 1#32 1#32))
def acc5 : FVec F SC .f32 :=
  addf (acc4 L x) (term (comp (off 0 x)) (comp (off 1 x)) (off 2 x) (corner L x 1#32 0#32 0#32))
def acc6 : FVec F SC .f32 :=
  addf (acc5 L x) (term (off 0 x) (comp (off 1 x)) (off 2 x) (corner L x 1#32 0#32 1#32))
def acc7 : FVec F SC .f32 :=
  addf (acc6 L x) (term (comp (off 0 x)) (off 1 x) (off 2 x) (corner L x 1#32 1#32 0#32))
def acc8 : FVec F SC .f32 :=
  addf (acc7 L x) (term (off 0 x) (off 1 x) (off 2 x) (corner L x 1#32 1#32 1#32))

/-- All eight weighted corners added, with the batch axis moved in front of the channel axis. -/
def refResult : FVec F SX .f32 := transpose SX [1, 0, 2, 3] (acc8 L x) transposesC
end

/-- The table at channel `c` with each lattice coordinate capped at 32, as a gather caps it. -/
def tableAt {α : Type} (L : SL.Idx → α) (c : Fin 3) (ib ig ir : ℕ) : α :=
  L (ix4 c (⟨min ib 32, by omega⟩ : Fin 33) (⟨min ig 32, by omega⟩ : Fin 33) (⟨min ir 32, by omega⟩ : Fin 33))

def oneE : EReal := FloatOps.ofBits (F := Ideal) .f32 0x3F800000#32
def zeroE : EReal := FloatOps.ofBits (F := Ideal) .f32 0x00000000#32

/-- Interpolation along r, then g, then b, at one entry: `o` is one, `a`, `b`, `g` the offsets, `v` the corners. -/
def nestedAt (o a b g : EReal) (v : Fin 2 → Fin 2 → Fin 2 → EReal) : EReal :=
  (o - g) * ((o - b) * ((o - a) * v 0 0 0 + a * v 0 0 1) + b * ((o - a) * v 0 1 0 + a * v 0 1 1))
    + g * ((o - b) * ((o - a) * v 1 0 0 + a * v 1 0 1) + b * ((o - a) * v 1 1 0 + a * v 1 1 1))

/-- The eight corners each times its three weights, added onto `z` in the order of `accJ`. -/
def summedAt (z o a b g : EReal) (v : Fin 2 → Fin 2 → Fin 2 → EReal) : EReal :=
  z + ((o - a) * (o - b)) * (o - g) * v 0 0 0 + (a * (o - b)) * (o - g) * v 0 0 1
    + ((o - a) * b) * (o - g) * v 0 1 0 + (a * b) * (o - g) * v 0 1 1
    + ((o - a) * (o - b)) * g * v 1 0 0 + (a * (o - b)) * g * v 1 0 1
    + ((o - a) * b) * g * v 1 1 0 + (a * b) * g * v 1 1 1

end Cert.Lut

end
-- ==== Proof.KernelFinal.lean ====
import proofs.«415802_j20744692039901_3_alg».proof.Proof.Gen.KernelIdeal.Value
import proofs.«415802_j20744692039901_3_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

private theorem offset_cast (x2 : Vec F S8x128x256 .f32) : k0_pay2 x2 = x2 := by
  unfold k0_pay2
  exact shapeCast_self _ _

private theorem oneMinus_apply (x2 : Vec F S8x128x256 .f32) (j : S8x128x256.Idx) :
    k0_pay3 x2 j = FloatOps.subf (FloatOps.ofBits .f32 0x3F800000#32) (x2 j) := by
  unfold k0_pay3
  rw [offset_cast]
  rfl

private theorem side_apply (v : Vec F S1x8x128x256 .f32) (h : S1x8x128x256.ShapeCasts S8x128x256) (j : S8x128x256.Idx) :
    shapeCast S8x128x256 v h j = v (ix4 (0 : Fin 1) (j 0) (j 1) (j 2)) := by
  refine shapeCast_apply v h j _ ?_
  rw [Shape.rowMajor_val_four, Shape.rowMajor_val_three]
  show (((0 : Nat) * 8 + (j 0).val) * 128 + (j 1).val) * 256 + (j 2).val = ((j 0).val * 128 + (j 1).val) * 256 + (j 2).val
  omega

/-- One channel's stored slab at an entry: (1 - bd) · c0 + bd · c1 of the operands' entries at the same batch, row and column. -/
private theorem channel_apply (x2 : Vec F S8x128x256 .f32) (v w : Vec F S1x8x128x256 .f32)
    (h : S8x128x256.ShapeCasts S8x1x128x256) (hv hw : S1x8x128x256.ShapeCasts S8x128x256) (y : S8x1x128x256.Idx) :
    shapeCast S8x1x128x256 (addf (mulf (k0_pay3 x2) (shapeCast S8x128x256 v hv)) (mulf (k0_pay2 x2) (shapeCast S8x128x256 w hw))) h y
      = FloatOps.addf
          (FloatOps.mulf (FloatOps.subf (FloatOps.ofBits .f32 0x3F800000#32) (x2 (ix3 (y 0) (y 2) (y 3)))) (v (ix4 (0 : Fin 1) (y 0) (y 2) (y 3))))
          (FloatOps.mulf (x2 (ix3 (y 0) (y 2) (y 3))) (w (ix4 (0 : Fin 1) (y 0) (y 2) (y 3)))) := by
  have h1 : (y 1).val < 1 := (y 1).isLt
  refine (shapeCast_apply _ h y (ix3 (y 0) (y 2) (y 3)) ?_).trans ?_
  · rw [Shape.rowMajor_val_three, Shape.rowMajor_val_four]
    show ((y 0).val * 128 + (y 2).val) * 256 + (y 3).val = (((y 0).val * 1 + (y 1).val) * 128 + (y 2).val) * 256 + (y 3).val
    omega
  · show FloatOps.addf (FloatOps.mulf (k0_pay3 x2 (ix3 (y 0) (y 2) (y 3))) (shapeCast S8x128x256 v hv (ix3 (y 0) (y 2) (y 3))))
        (FloatOps.mulf (k0_pay2 x2 (ix3 (y 0) (y 2) (y 3))) (shapeCast S8x128x256 w hw (ix3 (y 0) (y 2) (y 3)))) = _
    rw [oneMinus_apply, offset_cast, side_apply, side_apply]

/-- What a grid point leaves in its result block, as one function of its three operand blocks. -/
private def blockOf (x0 x1 : Vec F S3x8x128x256 .f32) (x2 : Vec F S8x128x256 .f32) : Vec F S8x3x128x256 .f32 := fun y =>
  FloatOps.addf
    (FloatOps.mulf (FloatOps.subf (FloatOps.ofBits .f32 0x3F800000#32) (x2 (ix3 (y 0) (y 2) (y 3)))) (x0 (ix4 (y 1) (y 0) (y 2) (y 3))))
    (FloatOps.mulf (x2 (ix3 (y 0) (y 2) (y 3))) (x1 (ix4 (y 1) (y 0) (y 2) (y 3))))

private theorem store_ch0 (x0 x1 : Vec F S3x8x128x256 .f32) (x2 : Vec F S8x128x256 .f32) (x : S8x1x128x256.Idx) :
    k0_pay4 (View.ld x2 r0_0) (View.ld x0 r0_1) (View.ld x1 r0_1) x = blockOf x0 x1 x2 (r0_2.emb x) := by
  have h1 : (x 1).val < 1 := (x 1).isLt
  unfold k0_pay4
  refine (channel_apply _ _ _ _ _ _ x).trans ?_
  unfold blockOf
  have e2 : View.ld x2 r0_0 (ix3 (x 0) (x 2) (x 3)) = x2 (ix3 (r0_2.emb x 0) (r0_2.emb x 2) (r0_2.emb x 3)) := by
    show x2 (r0_0.idx _) = _
    congr 1; funext a; apply Fin.ext
    match a with
    | ⟨0, _⟩ => show 0 + 1 * (x 0).val = 0 + 1 * (x 0).val; rfl
    | ⟨1, _⟩ => show 0 + 1 * (x 2).val = 0 + 1 * (x 2).val; rfl
    | ⟨2, _⟩ => show 0 + 1 * (x 3).val = 0 + 1 * (x 3).val; rfl
  have e0 : ∀ z : Vec F S3x8x128x256 .f32, View.ld z r0_1 (ix4 (0 : Fin 1) (x 0) (x 2) (x 3))
      = z (ix4 (r0_2.emb x 1) (r0_2.emb x 0) (r0_2.emb x 2) (r0_2.emb x 3)) := by
    intro z
    show z (r0_1.idx _) = _
    congr 1; funext a; apply Fin.ext
    match a with
    | ⟨0, _⟩ => show 0 + 1 * 0 = 0 + 1 * (x 1).val; omega
    | ⟨1, _⟩ => show 0 + 1 * (x 0).val = 0 + 1 * (x 0).val; rfl
    | ⟨2, _⟩ => show 0 + 1 * (x 2).val = 0 + 1 * (x 2).val; rfl
    | ⟨3, _⟩ => show 0 + 1 * (x 3).val = 0 + 1 * (x 3).val; rfl
  rw [e2, e0 x0, e0 x1]

private theorem store_ch1 (x0 x1 : Vec F S3x8x128x256 .f32) (x2 : Vec F S8x128x256 .f32) (x : S8x1x128x256.Idx) :
    k0_pay5 (View.ld x2 r0_0) (View.ld x0 r0_3) (View.ld x1 r0_3) x = blockOf x0 x1 x2 (r0_4.emb x) := by
  have h1 : (x 1).val < 1 := (x 1).isLt
  unfold k0_pay5
  refine (channel_apply _ _ _ _ _ _ x).trans ?_
  unfold blockOf
  have e2 : View.ld x2 r0_0 (ix3 (x 0) (x 2) (x 3)) = x2 (ix3 (r0_4.emb x 0) (r0_4.emb x 2) (r0_4.emb x 3)) := by
    show x2 (r0_0.idx _) = _
    congr 1; funext a; apply Fin.ext
    match a with
    | ⟨0, _⟩ => show 0 + 1 * (x 0).val = 0 + 1 * (x 0).val; rfl
    | ⟨1, _⟩ => show 0 + 1 * (x 2).val = 0 + 1 * (x 2).val; rfl
    | ⟨2, _⟩ => show 0 + 1 * (x 3).val = 0 + 1 * (x 3).val; rfl
  have e0 : ∀ z : Vec F S3x8x128x256 .f32, View.ld z r0_3 (ix4 (0 : Fin 1) (x 0) (x 2) (x 3))
      = z (ix4 (r0_4.emb x 1) (r0_4.emb x 0) (r0_4.emb x 2) (r0_4.emb x 3)) := by
    intro z
    show z (r0_3.idx _) = _
    congr 1; funext a; apply Fin.ext
    match a with
    | ⟨0, _⟩ => show 1 + 1 * 0 = 1 + 1 * (x 1).val; omega
    | ⟨1, _⟩ => show 0 + 1 * (x 0).val = 0 + 1 * (x 0).val; rfl
    | ⟨2, _⟩ => show 0 + 1 * (x 2).val = 0 + 1 * (x 2).val; rfl
    | ⟨3, _⟩ => show 0 + 1 * (x 3).val = 0 + 1 * (x 3).val; rfl
  rw [e2, e0 x0, e0 x1]

private theorem store_ch2 (x0 x1 : Vec F S3x8x128x256 .f32) (x2 : Vec F S8x128x256 .f32) (x : S8x1x128x256.Idx) :
    k0_pay1 (k0_pay2 (View.ld x2 r0_0)) (k0_pay3 (View.ld x2 r0_0)) (View.ld x0 r0_5) (View.ld x1 r0_5) x = blockOf x0 x1 x2 (r0_6.emb x) := by
  have h1 : (x 1).val < 1 := (x 1).isLt
  unfold k0_pay1
  refine (channel_apply _ _ _ _ _ _ x).trans ?_
  unfold blockOf
  have e2 : View.ld x2 r0_0 (ix3 (x 0) (x 2) (x 3)) = x2 (ix3 (r0_6.emb x 0) (r0_6.emb x 2) (r0_6.emb x 3)) := by
    show x2 (r0_0.idx _) = _
    congr 1; funext a; apply Fin.ext
    match a with
    | ⟨0, _⟩ => show 0 + 1 * (x 0).val = 0 + 1 * (x 0).val; rfl
    | ⟨1, _⟩ => show 0 + 1 * (x 2).val = 0 + 1 * (x 2).val; rfl
    | ⟨2, _⟩ => show 0 + 1 * (x 3).val = 0 + 1 * (x 3).val; rfl
  have e0 : ∀ z : Vec F S3x8x128x256 .f32, View.ld z r0_5 (ix4 (0 : Fin 1) (x 0) (x 2) (x 3))
      = z (ix4 (r0_6.emb x 1) (r0_6.emb x 0) (r0_6.emb x 2) (r0_6.emb x 3)) := by
    intro z
    show z (r0_5.idx _) = _
    congr 1; funext a; apply Fin.ext
    match a with
    | ⟨0, _⟩ => show 2 + 1 * 0 = 2 + 1 * (x 1).val; omega
    | ⟨1, _⟩ => show 0 + 1 * (x 0).val = 0 + 1 * (x 0).val; rfl
    | ⟨2, _⟩ => show 0 + 1 * (x 2).val = 0 + 1 * (x 2).val; rfl
    | ⟨3, _⟩ => show 0 + 1 * (x 3).val = 0 + 1 * (x 3).val; rfl
  rw [e2, e0 x0, e0 x1]

/-- The three per-channel stores together are `blockOf`: they tile the block's channel axis. -/
private theorem stores_eq_blockOf (x0 x1 : Vec F S3x8x128x256 .f32) (x2 : Vec F S8x128x256 .f32) : out0_3 x0 x1 x2 = blockOf x0 x1 x2 := by
  funext y
  unfold out0_3
  refine View.canon_apply_of_pieces (blockOf x0 x1 x2) _ ?_ y (cover0_3 _ _ _ y)
  intro pc hpc x
  rcases List.mem_cons.mp hpc with rfl | hpc
  · exact store_ch2 x0 x1 x2 x
  rcases List.mem_cons.mp hpc with rfl | hpc
  · exact store_ch1 x0 x1 x2 x
  rcases List.mem_cons.mp hpc with rfl | hpc
  · exact store_ch0 x0 x1 x2 x
  nomatch hpc

/-- Over the 8 × 4 grid every operand's block sits at the same rows and columns as the result's block. -/
private theorem tile_index : ∀ t : Fin cfg0.N,
    win0_3.index t (0 : Fin 4) = 0 ∧ win0_3.index t (1 : Fin 4) = 0
    ∧ win0_3.index t (2 : Fin 4) ≤ 7 ∧ win0_3.index t (3 : Fin 4) ≤ 3
    ∧ win0_0.index t (0 : Fin 4) = 0 ∧ win0_0.index t (1 : Fin 4) = 0
    ∧ win0_0.index t (2 : Fin 4) = win0_3.index t (2 : Fin 4) ∧ win0_0.index t (3 : Fin 4) = win0_3.index t (3 : Fin 4)
    ∧ win0_1.index t (0 : Fin 4) = 0 ∧ win0_1.index t (1 : Fin 4) = 0
    ∧ win0_1.index t (2 : Fin 4) = win0_3.index t (2 : Fin 4) ∧ win0_1.index t (3 : Fin 4) = win0_3.index t (3 : Fin 4)
    ∧ win0_2.index t (0 : Fin 3) = 0
    ∧ win0_2.index t (1 : Fin 3) = win0_3.index t (2 : Fin 4) ∧ win0_2.index t (2 : Fin 3) = win0_3.index t (3 : Fin 4) :=
  (by decide +kernel : ∀ t : Fin grid0.N, _)

/-- Every (row block, column block) pair is some grid point's. -/
private theorem tile_onto : ∀ (q0 : Fin 8) (q1 : Fin 4), ∃ t : Fin cfg0.N, win0_3.index t = ![0, 0, q0.val, q1.val] :=
  (by decide +kernel : ∀ (q0 : Fin 8) (q1 : Fin 4), ∃ t : Fin grid0.N, win0_3.index t = ![0, 0, q0.val, q1.val])

private theorem blockOf_eq_combine (x0 x1 : Vec F S3x8x128x256 .f32) (x2 : Vec F S8x128x256 .f32)
    (A0 A1 : FVec F Cert.Lut.SC .f32) (A2 : FVec F Cert.Lut.SP .f32) (y : S8x3x128x256.Idx) (i : Cert.Lut.SX.Idx)
    (h0 : x0 (ix4 (y 1) (y 0) (y 2) (y 3)) = A0 (ix4 (i 1) (i 0) (i 2) (i 3)))
    (h1 : x1 (ix4 (y 1) (y 0) (y 2) (y 3)) = A1 (ix4 (i 1) (i 0) (i 2) (i 3)))
    (h2 : x2 (ix3 (y 0) (y 2) (y 3)) = A2 (ix3 (i 0) (i 2) (i 3))) :
    blockOf x0 x1 x2 y = Cert.Lut.combine A0 A1 A2 i := by
  unfold blockOf Cert.Lut.combine
  rw [h0, h1, h2]

/-- Grid point `t`'s result block is `combine` of the three operand arrays, restricted to that block. -/
private theorem written_eq (c : Dev nD) (t : Fin cfg0.N) :
    (dats m 0 c).flushed 3 t = ((cfg0.win 3).blk t).view.read (Elt F)
      (Cert.Lut.combine (V m c main_v96) (V m c main_v159) (V m c main_v26)) := by
  rw [Cert.KernelIdeal.Value.flushed3]
  refine (congrArg _ (stores_eq_blockOf _ _ _)).trans ?_
  obtain ⟨e30, e31, b32, b33, e00, e01, e02, e03, e10, e11, e12, e13, e20, e21, e22⟩ := tile_index t
  funext y
  show blockOf (iblk m c 0 t) (iblk m c 1 t) (iblk m c 2 t) y
    = Cert.Lut.combine (V m c main_v96) (V m c main_v159) (V m c main_v26) (((cfg0.win 3).blk t).view.emb y)
  have hy0 : (y 0).val < 8 := (y 0).isLt
  have hy1 : (y 1).val < 3 := (y 1).isLt
  have hy2 : (y 2).val < 128 := (y 2).isLt
  have hy3 : (y 3).val < 256 := (y 3).isLt
  refine blockOf_eq_combine _ _ _ _ _ _ y _ ?_ ?_ ?_
  · show V m c main_v96 (((cfg0.win 0).blk t).view.emb (ix4 (y 1) (y 0) (y 2) (y 3))) = V m c main_v96 _
    congr 1; funext a; apply Fin.ext
    match a with
    | ⟨0, _⟩ => show win0_0.index t (0 : Fin 4) * 3 + 1 * (y 1).val = win0_3.index t (1 : Fin 4) * 3 + 1 * (y 1).val; omega
    | ⟨1, _⟩ => show win0_0.index t (1 : Fin 4) * 8 + 1 * (y 0).val = win0_3.index t (0 : Fin 4) * 8 + 1 * (y 0).val; omega
    | ⟨2, _⟩ => show win0_0.index t (2 : Fin 4) * 128 + 1 * (y 2).val = win0_3.index t (2 : Fin 4) * 128 + 1 * (y 2).val; omega
    | ⟨3, _⟩ => show win0_0.index t (3 : Fin 4) * 256 + 1 * (y 3).val = win0_3.index t (3 : Fin 4) * 256 + 1 * (y 3).val; omega
  · show V m c main_v159 (((cfg0.win 1).blk t).view.emb (ix4 (y 1) (y 0) (y 2) (y 3))) = V m c main_v159 _
    congr 1; funext a; apply Fin.ext
    match a with
    | ⟨0, _⟩ => show win0_1.index t (0 : Fin 4) * 3 + 1 * (y 1).val = win0_3.index t (1 : Fin 4) * 3 + 1 * (y 1).val; omega
    | ⟨1, _⟩ => show win0_1.index t (1 : Fin 4) * 8 + 1 * (y 0).val = win0_3.index t (0 : Fin 4) * 8 + 1 * (y 0).val; omega
    | ⟨2, _⟩ => show win0_1.index t (2 : Fin 4) * 128 + 1 * (y 2).val = win0_3.index t (2 : Fin 4) * 128 + 1 * (y 2).val; omega
    | ⟨3, _⟩ => show win0_1.index t (3 : Fin 4) * 256 + 1 * (y 3).val = win0_3.index t (3 : Fin 4) * 256 + 1 * (y 3).val; omega
  · show V m c main_v26 (((cfg0.win 2).blk t).view.emb (ix3 (y 0) (y 2) (y 3))) = V m c main_v26 _
    congr 1; funext a; apply Fin.ext
    match a with
    | ⟨0, _⟩ => show win0_2.index t (0 : Fin 3) * 8 + 1 * (y 0).val = win0_3.index t (0 : Fin 4) * 8 + 1 * (y 0).val; omega
    | ⟨1, _⟩ => show win0_2.index t (1 : Fin 3) * 128 + 1 * (y 2).val = win0_3.index t (2 : Fin 4) * 128 + 1 * (y 2).val; omega
    | ⟨2, _⟩ => show win0_2.index t (2 : Fin 3) * 256 + 1 * (y 3).val = win0_3.index t (3 : Fin 4) * 256 + 1 * (y 3).val; omega

private theorem mem_tile (t : Fin cfg0.N) (i : S8x3x1024x1024.Idx) :
    i ∈ ((cfg0.win 3).blk t).view.set ↔ ∀ a : Fin 4, win0_3.index t a * S8x3x128x256.size a ≤ (i a).val
      ∧ (i a).val < win0_3.index t a * S8x3x128x256.size a + S8x3x128x256.size a := by
  show i ∈ ((View.whole main_v160).slice (win0_3.rect t)).set ↔ _
  rw [View.set_slice_whole, Rect.mem_set_unit]
  exact Iff.rfl

/-- The 32 blocks cover the result array: entry (·, ·, r, q) lies in block (r / 128, q / 256). -/
private theorem tiles_cover (i : S8x3x1024x1024.Idx) :
    ∃ t : Fin cfg0.N, (cfg0.win 3).flush t = true ∧ i ∈ ((cfg0.win 3).blk t).view.set := by
  have hi0 : (i 0).val < 8 := (i 0).isLt
  have hi1 : (i 1).val < 3 := (i 1).isLt
  have hi2 : (i 2).val < 1024 := (i 2).isLt
  have hi3 : (i 3).val < 1024 := (i 3).isLt
  obtain ⟨t, ht⟩ := tile_onto ⟨(i 2).val / 128, by omega⟩ ⟨(i 3).val / 256, by omega⟩
  have q0 : win0_3.index t (0 : Fin 4) = 0 := congrFun ht 0
  have q1 : win0_3.index t (1 : Fin 4) = 0 := congrFun ht 1
  have q2 : win0_3.index t (2 : Fin 4) = (i 2).val / 128 := congrFun ht 2
  have q3 : win0_3.index t (3 : Fin 4) = (i 3).val / 256 := congrFun ht 3
  refine ⟨t, flush0_3 t, ?_⟩
  rw [mem_tile]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 3 ≤ (i 1).val ∧ (i 1).val < win0_3.index t (1 : Fin 4) * 3 + 3; omega
  | ⟨2, _⟩ => show win0_3.index t (2 : Fin 4) * 128 ≤ (i 2).val ∧ (i 2).val < win0_3.index t (2 : Fin 4) * 128 + 128; omega
  | ⟨3, _⟩ => show win0_3.index t (3 : Fin 4) * 256 ≤ (i 3).val ∧ (i 3).val < win0_3.index t (3 : Fin 4) * 256 + 256; omega

/-- After the run the result array is `combine` of the three operand arrays, entry by entry. -/
theorem final (c : Dev nD) :
    (dats m 0 c).arrAt 3 cfg0.N = Cert.Lut.combine (V m c main_v96) (V m c main_v159) (V m c main_v26) :=
  (dats m 0 c).arrAt_eq_of_cover 3 (Cert.Lut.combine (V m c main_v96) (V m c main_v159) (V m c main_v26))
    (fun t _ => written_eq m c t) tiles_cover

theorem run : θ_run defs (onTc (τ := τ) (main (F := F))) ⟨m, fun _ => 0, ρ⟩ fun r => ∀ c : Dev nD,
      r.2.mem ((c : Thread nD τ).loc main_v160) = Cert.Lut.combine (V m c main_v96) (V m c main_v159) (V m c main_v26)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Final

end
-- ==== Proof.KernelHost.lean ====
import proofs.«415802_j20744692039901_3_alg».proof.Proof.Gen.KernelIdeal.Frame
import proofs.«415802_j20744692039901_3_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Cert.Lut

variable {F : FTy → Type} [FloatOps F]
variable (m : (ℓ : Loc nD τ sig) → Buf (Elt F) ℓ)

abbrev argL (c : Dev nD) : FVec F SL .f32 := m ((c : Thread nD τ).loc main_arg0)
abbrev argX (c : Dev nD) : FVec F SX .f32 := m ((c : Thread nD τ).loc main_arg1)

set_option maxHeartbeats 4000000 in
/-- The third operand the kernel reads is the offset along b. -/
theorem V_bd (c : Dev nD) : V m c main_v26 = off 2 (argX m c) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

abbrev baseOf (c : Dev nD) : IVec SP 32 := basePos (cell 0 (argX m c)) (cell 1 (argX m c)) (cell 2 (argX m c))

set_option maxHeartbeats 16000000 in
/-- The first operand is the b-face at the cell's own b, interpolated along r and g from four merged-axis gathers. -/
theorem V_c0 (c : Dev nD) :
    V m c main_v96 = side (flatTable (argL m c)) (baseOf m c) (off 0 (argX m c)) (off 1 (argX m c)) 0#32 1#32 33#32 34#32 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 16000000 in
/-- The second operand is the b-face one bin further along b. -/
theorem V_c1 (c : Dev nD) :
    V m c main_v159 = side (flatTable (argL m c)) (baseOf m c) (off 0 (argX m c)) (off 1 (argX m c)) 1089#32 1090#32 1122#32 1123#32 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.Host

end
-- ==== Proof.Gathers.lean ====
import proofs.«415802_j20744692039901_3_alg».proof.Proof.Spec
import Idealize.ShloMosaic.Lib.Pipeline.Value

noncomputable section

namespace Cert.Lut

open Idealize.ShloMosaic Idealize.ShloMosaic.ValueIdx

variable {F : FTy → Type} [FloatOps F]

/-- The gather on the merged axis: the channel is kept, the merged axis is read at the pixel's start index capped at 35936. -/
private theorem gather_flat_read {α : Type} {n : Nat} (Lf : SLf.Idx → α) (idx : IVec SP1 n) (c : Fin 3) (b : Fin 8)
    (h w : Fin 1024) :
    Host.gather gdFlat Lf idx (ix4 c b h w)
      = Lf (ix2 c (⟨min (idx (ix4 b h w 0)).toInt.toNat 35936, by omega⟩ : Fin 35937)) := by
  unfold Host.gather
  congr 1
  funext a
  match a with
  | ⟨0, _⟩ =>
    refine Fin.ext ?_
    show gdFlat.start (ix4 c b h w) idx 0 + gdFlat.batchCoord (ix4 c b h w) 0 + gdFlat.offCoord (ix4 c b h w) 0 = c.val
    rw [GatherDims.batchCoord_eq_zero _ _ _ List.not_mem_nil]
    have hs : gdFlat.start (ix4 c b h w) idx 0 = 0 := by
      unfold GatherDims.start
      rw [dif_neg (by decide)]
    rw [hs]
    have ho : gdFlat.offCoord (ix4 c b h w) 0 = c.val := by
      unfold GatherDims.offCoord
      rw [dif_pos (by decide)]
      rfl
    rw [ho, Nat.zero_add]
  | ⟨1, _⟩ =>
    refine Fin.ext ?_
    show gdFlat.start (ix4 c b h w) idx 1 + gdFlat.batchCoord (ix4 c b h w) 1 + gdFlat.offCoord (ix4 c b h w) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gdFlat.startIndexMap from List.mem_singleton.mpr rfl)]
    have hsi : gdFlat.siIdx (ix4 c b h w) ⟨List.idxOf (1 : Fin 2) gdFlat.startIndexMap,
        List.idxOf_lt_length_iff.2 (List.mem_singleton.mpr rfl)⟩ = ix4 b h w 0 := by
      funext e; refine Fin.ext ?_
      match e with
      | ⟨0, _⟩ => rfl
      | ⟨1, _⟩ => rfl
      | ⟨2, _⟩ => rfl
      | ⟨3, _⟩ => rfl
    rw [hsi]
    rfl

/-- The three-coordinate gather: the channel is kept, each lattice axis is read at its start index capped at 32. -/
private theorem gather_cube_read {α : Type} {n : Nat} (L : SL.Idx → α) (idx : IVec SP3 n) (c : Fin 3) (b : Fin 8)
    (h w : Fin 1024) :
    Host.gather gdCube L idx (ix4 c b h w)
      = L (ix4 c (⟨min (idx (ix4 b h w 0)).toInt.toNat 32, by omega⟩ : Fin 33)
          (⟨min (idx (ix4 b h w 1)).toInt.toNat 32, by omega⟩ : Fin 33)
          (⟨min (idx (ix4 b h w 2)).toInt.toNat 32, by omega⟩ : Fin 33)) := by
  unfold Host.gather
  congr 1
  funext a
  match a with
  | ⟨0, _⟩ =>
    refine Fin.ext ?_
    show gdCube.start (ix4 c b h w) idx 0 + gdCube.batchCoord (ix4 c b h w) 0 + gdCube.offCoord (ix4 c b h w) 0 = c.val
    rw [GatherDims.batchCoord_eq_zero _ _ _ List.not_mem_nil]
    have hs : gdCube.start (ix4 c b h w) idx 0 = 0 := by
      unfold GatherDims.start
      rw [dif_neg (by decide)]
    rw [hs]
    have ho : gdCube.offCoord (ix4 c b h w) 0 = c.val := by
      unfold GatherDims.offCoord
      rw [dif_pos (by decide)]
      rfl
    rw [ho, Nat.zero_add]
  | ⟨1, _⟩ =>
    refine Fin.ext ?_
    show gdCube.start (ix4 c b h w) idx 1 + gdCube.batchCoord (ix4 c b h w) 1 + gdCube.offCoord (ix4 c b h w) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 4) ∈ gdCube.startIndexMap by decide)]
    have hsi : gdCube.siIdx (ix4 c b h w) ⟨List.idxOf (1 : Fin 4) gdCube.startIndexMap,
        List.idxOf_lt_length_iff.2 (by decide)⟩ = ix4 b h w 0 := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    refine Fin.ext ?_
    show gdCube.start (ix4 c b h w) idx 2 + gdCube.batchCoord (ix4 c b h w) 2 + gdCube.offCoord (ix4 c b h w) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 4) ∈ gdCube.startIndexMap by decide)]
    have hsi : gdCube.siIdx (ix4 c b h w) ⟨List.idxOf (2 : Fin 4) gdCube.startIndexMap,
        List.idxOf_lt_length_iff.2 (by decide)⟩ = ix4 b h w 1 := by
      funext e; refine Fin.ext ?_
      match e with
      | ⟨0, _⟩ => rfl
      | ⟨1, _⟩ => rfl
      | ⟨2, _⟩ => rfl
      | ⟨3, _⟩ => rfl
    rw [hsi]
    rfl
  | ⟨3, _⟩ =>
    refine Fin.ext ?_
    show gdCube.start (ix4 c b h w) idx 3 + gdCube.batchCoord (ix4 c b h w) 3 + gdCube.offCoord (ix4 c b h w) 3 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (3 : Fin 4) ∈ gdCube.startIndexMap by decide)]
    have hsi : gdCube.siIdx (ix4 c b h w) ⟨List.idxOf (3 : Fin 4) gdCube.startIndexMap,
        List.idxOf_lt_length_iff.2 (by decide)⟩ = ix4 b h w 2 := by
      funext e; refine Fin.ext ?_
      match e with
      | ⟨0, _⟩ => rfl
      | ⟨1, _⟩ => rfl
      | ⟨2, _⟩ => rfl
      | ⟨3, _⟩ => rfl
    rw [hsi]
    rfl

/-- A word below 2³¹ reads the same signed and unsigned. -/
private theorem toInt_small {a : BitVec 32} (ha : a.toNat < 2 ^ 31) : a.toInt = a.toNat := by
  rw [BitVec.toInt_eq_msb_cond, BitVec.msb_eq_false_iff_two_mul_lt.mpr (by omega)]
  simp

/-- A non-negative index is left alone by the wrap of negative ones. -/
private theorem wrap_small (n m : BitVec 32) (hn : n.toNat < 2 ^ 31) :
    Scalar.select (IntOp.cmpi .slt n 0#32) (n + m) n = n := by
  have h0 : IntOp.cmpi .slt n 0#32 = 0#1 := by
    have hs : n.slt 0#32 = false := by
      simp [BitVec.slt, toInt_small hn]
    show BitVec.ofBool (n.slt 0#32) = 0#1
    rw [hs]; rfl
  rw [h0]; exact select_zero _ _

private theorem wrapNeg_apply (m : BitVec 32) (i : IVec SP 32) (p : SP.Idx) (hi : (i p).toNat < 2 ^ 31) :
    wrapNeg m i p = i p := wrap_small (i p) m hi

private theorem basePos_apply (rid gid bid : IVec SP 32) (p : SP.Idx) :
    basePos rid gid bid p = (bid p * 1089#32 + gid p * 33#32) + rid p := rfl

private theorem stepBy_apply (i : IVec SP 32) (d : BitVec 32) (p : SP.Idx) : stepBy i d p = i p + d := rfl

/-- With bins at most 31 and steps at most 1 the merged position does not overflow: it is (bid + db) · 1089 + (gid + dg) · 33 + (rid + dr). -/
private theorem flat_toNat (r g b' k : BitVec 32) (db dg dr : ℕ) (hk : k.toNat = db * 1089 + dg * 33 + dr)
    (hdb : db ≤ 1) (hdg : dg ≤ 1) (hdr : dr ≤ 1) (hr : r.toNat ≤ 31) (hg : g.toNat ≤ 31) (hb : b'.toNat ≤ 31) :
    (((b' * 1089#32 + g * 33#32) + r) + k).toNat
      = (b'.toNat + db) * 1089 + (g.toNat + dg) * 33 + (r.toNat + dr) := by
  rw [BitVec.toNat_add, BitVec.toNat_add, BitVec.toNat_add, BitVec.toNat_mul, BitVec.toNat_mul]
  simp only [BitVec.toNat_ofNat]
  omega

/-- A bin at most 31 plus a step at most 1 does not overflow. -/
private theorem step_toNat (i e : BitVec 32) (d : ℕ) (he : e.toNat = d) (hd : d ≤ 1) (hi : i.toNat ≤ 31) :
    (i + e).toNat = i.toNat + d := by
  rw [BitVec.toNat_add]; omega

/-- Position B · 1089 + G · 33 + R of the merged axis is lattice point (B, G, R), since 33 · 33 = 1089 and G, R stay below 33. -/
private theorem flatTable_read (L : FVec F SL .f32) (c : Fin 3) (B G R n : ℕ) (hB : B ≤ 32) (hG : G ≤ 32) (hR : R ≤ 32)
    (hn : n = B * 1089 + G * 33 + R) (hlt : n < 35937) :
    flatTable L (ix2 c (⟨n, hlt⟩ : Fin 35937))
      = L (ix4 c (⟨B, by omega⟩ : Fin 33) (⟨G, by omega⟩ : Fin 33) (⟨R, by omega⟩ : Fin 33)) := by
  unfold flatTable
  refine shapeCast_apply L castsL _ _ ?_
  rw [Shape.rowMajor_val_four, Shape.rowMajor_val_two]
  show ((c.val * 33 + B) * 33 + G) * 33 + R = c.val * 35937 + n
  omega

/-- A per-pixel array as start indices reads the pixel's value. -/
private theorem startIdx_read {n : Nat} (v : IVec SP n) (b : Fin 8) (h w : Fin 1024) :
    broadcastInDim SP1 ![0, 1, 2] bcPP1 v (ix4 b h w 0) = v (ix3 b h w) := by
  unfold broadcastInDim
  congr 1
  funext a
  match a with
  | ⟨0, _⟩ => rfl
  | ⟨1, _⟩ => rfl
  | ⟨2, _⟩ => rfl

/-- Component j of three joined one-component arrays is the j-th array's component. -/
private theorem concat3_read {n : Nat} (u0 u1 u2 : IVec SP1 n) (b : Fin 8) (h w : Fin 1024) :
    concatenate SP3 3 [⟨SP1, u0⟩, ⟨SP1, u1⟩, ⟨SP1, u2⟩] concats3 (ix4 b h w 0) = u0 (ix4 b h w 0)
    ∧ concatenate SP3 3 [⟨SP1, u0⟩, ⟨SP1, u1⟩, ⟨SP1, u2⟩] concats3 (ix4 b h w 1) = u1 (ix4 b h w 0)
    ∧ concatenate SP3 3 [⟨SP1, u0⟩, ⟨SP1, u1⟩, ⟨SP1, u2⟩] concats3 (ix4 b h w 2) = u2 (ix4 b h w 0) := by
  refine ⟨?_, ?_, ?_⟩
  · refine concatenate_apply_piece (t := SP3) 3 [⟨SP1, u0⟩, ⟨SP1, u1⟩, ⟨SP1, u2⟩] concats3 _ 0 (by show 0 < 3; omega) SP1 u0 rfl rfl 0 rfl (ix4 b h w 0) ?_ rfl
    intro e he
    match e with
    | ⟨0, _⟩ => rfl
    | ⟨1, _⟩ => rfl
    | ⟨2, _⟩ => rfl
    | ⟨3, _⟩ => exact absurd rfl he
  · refine concatenate_apply_piece (t := SP3) 3 [⟨SP1, u0⟩, ⟨SP1, u1⟩, ⟨SP1, u2⟩] concats3 _ 1 (by show 1 < 3; omega) SP1 u1 rfl rfl 1 rfl (ix4 b h w 0) ?_ rfl
    intro e he
    match e with
    | ⟨0, _⟩ => rfl
    | ⟨1, _⟩ => rfl
    | ⟨2, _⟩ => rfl
    | ⟨3, _⟩ => exact absurd rfl he
  · refine concatenate_apply_piece (t := SP3) 3 [⟨SP1, u0⟩, ⟨SP1, u1⟩, ⟨SP1, u2⟩] concats3 _ 2 (by show 2 < 3; omega) SP1 u2 rfl rfl 2 rfl (ix4 b h w 0) ?_ rfl
    intro e he
    match e with
    | ⟨0, _⟩ => rfl
    | ⟨1, _⟩ => rfl
    | ⟨2, _⟩ => rfl
    | ⟨3, _⟩ => exact absurd rfl he

/-- The merged-axis gather at a start index B · 1089 + G · 33 + R with B, G, R at most 32 reads the table at (B, G, R). -/
private theorem flat_read_at (L : FVec F SL .f32) (idx : IVec SP1 32) (c : Fin 3) (b : Fin 8) (h w : Fin 1024)
    (B G R : ℕ) (hB : B ≤ 32) (hG : G ≤ 32) (hR : R ≤ 32)
    (hidx : (idx (ix4 b h w 0)).toInt.toNat = B * 1089 + G * 33 + R) :
    Host.gather gdFlat (flatTable L) idx (ix4 c b h w)
      = L (ix4 c (⟨B, by omega⟩ : Fin 33) (⟨G, by omega⟩ : Fin 33) (⟨R, by omega⟩ : Fin 33)) := by
  rw [gather_flat_read]
  have hlt : B * 1089 + G * 33 + R < 35937 := by omega
  refine (congrArg (fun q => flatTable L (ix2 c q))
    (Fin.ext ?_ : _ = (⟨B * 1089 + G * 33 + R, hlt⟩ : Fin 35937))).trans (flatTable_read L c B G R _ hB hG hR rfl hlt)
  show min (idx (ix4 b h w 0)).toInt.toNat 35936 = B * 1089 + G * 33 + R
  rw [hidx]
  omega

/-- The three-coordinate gather at known start indices reads `tableAt` there. -/
private theorem cube_read_at (L : FVec F SL .f32) (idx : IVec SP3 32) (c : Fin 3) (b : Fin 8) (h w : Fin 1024)
    (nb ng nr : ℕ) (h0 : (idx (ix4 b h w 0)).toInt.toNat = nb) (h1 : (idx (ix4 b h w 1)).toInt.toNat = ng)
    (h2 : (idx (ix4 b h w 2)).toInt.toNat = nr) :
    Host.gather gdCube L idx (ix4 c b h w) = tableAt L c nb ng nr := by
  subst h0 h1 h2
  exact gather_cube_read L idx c b h w

/-- The kernel program's gather at the lowest corner's position plus the merged offset of corner (db, dg, dr) is the table at that corner. -/
theorem flatCorner_apply (L : FVec F SL .f32) (rid gid bid : IVec SP 32) (k : BitVec 32) (db dg dr : ℕ)
    (hk : k.toNat = db * 1089 + dg * 33 + dr) (hdb : db ≤ 1) (hdg : dg ≤ 1) (hdr : dr ≤ 1)
    (c : Fin 3) (b : Fin 8) (h w : Fin 1024)
    (hr : (rid (ix3 b h w)).toNat ≤ 31) (hg : (gid (ix3 b h w)).toNat ≤ 31) (hb : (bid (ix3 b h w)).toNat ≤ 31) :
    flatCorner (flatTable L) (basePos rid gid bid) k (ix4 c b h w)
      = tableAt L c ((bid (ix3 b h w)).toNat + db) ((gid (ix3 b h w)).toNat + dg) ((rid (ix3 b h w)).toNat + dr) := by
  have hN := flat_toNat (rid (ix3 b h w)) (gid (ix3 b h w)) (bid (ix3 b h w)) k db dg dr hk hdb hdg hdr hr hg hb
  have hsmall : ((((bid (ix3 b h w)) * 1089#32 + (gid (ix3 b h w)) * 33#32) + rid (ix3 b h w)) + k).toNat < 2 ^ 31 := by
    rw [hN]; omega
  unfold flatCorner tableAt
  refine flat_read_at L _ c b h w _ _ _ (by omega) (by omega) (by omega) ?_
  rw [startIdx_read, wrapNeg_apply _ _ _ hsmall]
  show (((((bid (ix3 b h w)) * 1089#32 + (gid (ix3 b h w)) * 33#32) + rid (ix3 b h w)) + k).toInt).toNat = _
  rw [toInt_small hsmall, Int.toNat_natCast, hN]
  omega

/-- The reference's gather at the three stepped bin numbers is the table at that corner. -/
theorem cubeCorner_apply (L : FVec F SL .f32) (rid gid bid : IVec SP 32) (eb eg er : BitVec 32) (db dg dr : ℕ)
    (heb : eb.toNat = db) (heg : eg.toNat = dg) (her : er.toNat = dr) (hdb : db ≤ 1) (hdg : dg ≤ 1) (hdr : dr ≤ 1)
    (c : Fin 3) (b : Fin 8) (h w : Fin 1024)
    (hr : (rid (ix3 b h w)).toNat ≤ 31) (hg : (gid (ix3 b h w)).toNat ≤ 31) (hb : (bid (ix3 b h w)).toNat ≤ 31) :
    cubeCorner L (stepBy bid eb) (stepBy gid eg) (stepBy rid er) (ix4 c b h w)
      = tableAt L c ((bid (ix3 b h w)).toNat + db) ((gid (ix3 b h w)).toNat + dg) ((rid (ix3 b h w)).toNat + dr) := by
  have step : ∀ (i : IVec SP 32) (e : BitVec 32) (d : ℕ), e.toNat = d → d ≤ 1 → (i (ix3 b h w)).toNat ≤ 31 →
      (broadcastInDim SP1 ![0, 1, 2] bcPP1 (wrapNeg 33#32 (stepBy i e)) (ix4 b h w 0)).toInt.toNat
        = (i (ix3 b h w)).toNat + d := by
    intro i e d he hd hi
    have hs := step_toNat (i (ix3 b h w)) e d he hd hi
    have hsmall : (stepBy i e (ix3 b h w)).toNat < 2 ^ 31 := by
      rw [stepBy_apply, hs]; omega
    rw [startIdx_read, wrapNeg_apply _ _ _ hsmall, toInt_small hsmall, Int.toNat_natCast, stepBy_apply, hs]
  unfold cubeCorner startIdx3 startIdx
  obtain ⟨e0, e1, e2⟩ := concat3_read (broadcastInDim SP1 ![0, 1, 2] bcPP1 (wrapNeg 33#32 (stepBy bid eb)))
    (broadcastInDim SP1 ![0, 1, 2] bcPP1 (wrapNeg 33#32 (stepBy gid eg)))
    (broadcastInDim SP1 ![0, 1, 2] bcPP1 (wrapNeg 33#32 (stepBy rid er))) b h w
  refine cube_read_at L _ c b h w _ _ _ ?_ ?_ ?_
  · rw [e0]; exact step bid eb db heb hdb hb
  · rw [e1]; exact step gid eg dg heg hdg hg
  · rw [e2]; exact step rid er dr her hdr hr

/-- A per-pixel weight laid over the channels is that weight at every channel. -/
theorem overChannels_apply (u : FVec F SP .f32) (c : Fin 3) (b : Fin 8) (h w : Fin 1024) :
    overChannels u (ix4 c b h w) = u (ix3 b h w) := by
  unfold overChannels
  rw [broadcastInDim_apply ![0, 1, 2, 3] bcC1C _ (ix4 c b h w) (ix4 (0 : Fin 1) b h w) (fun a => by
    match a with
    | ⟨0, _⟩ => rfl
    | ⟨1, _⟩ => rfl
    | ⟨2, _⟩ => rfl
    | ⟨3, _⟩ => rfl)]
  exact broadcastInDim_apply ![1, 2, 3] bcPC1 u (ix4 (0 : Fin 1) b h w) (ix3 b h w) (fun a => by
    match a with
    | ⟨0, _⟩ => rfl
    | ⟨1, _⟩ => rfl
    | ⟨2, _⟩ => rfl)

end Cert.Lut

end
-- ==== Proof.Cells.lean ====
import proofs.«415802_j20744692039901_3_alg».proof.Proof.Spec

noncomputable section

namespace Cert.Lut

open Idealize.ShloMosaic Idealize.ShloMosaic.ValueIdx

variable {F : FTy → Type} [FloatOps F]

/-- A word clipped between 0 and 31 as signed numbers is at most 31 as a natural number. -/
private theorem clip_toNat_le (u : BitVec 32) : (IntOp.minsi (31#32) (IntOp.maxsi (0#32) u)).toNat ≤ 31 := by
  unfold IntOp.minsi IntOp.maxsi
  split_ifs with h1 h2 h2
  · decide
  · decide
  · decide
  · simp only [BitVec.slt, decide_eq_true_eq, BitVec.toInt_eq_toNat_cond] at h1 h2
    have h31 : (31#32 : BitVec 32).toNat = 31 := by decide
    have h0 : (0#32 : BitVec 32).toNat = 0 := by decide
    rw [h31] at h2
    rw [h0] at h1
    have hu := u.isLt
    split_ifs at h1 h2 <;> omega

/-- Every bin number is at most 31. -/
theorem cell_toNat_le (k : Fin 3) (x : FVec F SX .f32) (p : SP.Idx) : (cell k x p).toNat ≤ 31 := by
  exact clip_toNat_le _

/-- A bin number read signed is its natural-number value. -/
theorem cell_toInt (k : Fin 3) (x : FVec F SX .f32) (p : SP.Idx) : (cell k x p).toInt = ((cell k x p).toNat : ℤ) := by
  have h := cell_toNat_le k x p
  rw [BitVec.toInt_eq_toNat_cond]
  split_ifs with hc
  · rfl
  · omega

end Cert.Lut

end
-- ==== Proof.KernelValue.lean ====
import proofs.«415802_j20744692039901_3_alg».proof.Proof.Spec
import proofs.«415802_j20744692039901_3_alg».proof.Proof.Gathers
import proofs.«415802_j20744692039901_3_alg».proof.Proof.Cells
import Idealize.ShloMosaic.Lib.Pipeline.Value

noncomputable section

namespace Cert.Lut

open Idealize.ShloMosaic Idealize.ShloMosaic.ValueIdx

/-- A one-dimensional interpolation read at an entry. -/
theorem lerp_apply (u : FVec Ideal SP .f32) (a b' : FVec Ideal SC .f32) (c : Fin 3) (b : Fin 8) (h w : Fin 1024) :
    lerp u a b' (ix4 c b h w) = (oneE - u (ix3 b h w)) * a (ix4 c b h w) + u (ix3 b h w) * b' (ix4 c b h w) := by
  unfold lerp
  show overChannels (subf (broadcastInDim SP ![] bc0P (constant S0 .f32 0x3F800000#32)) u) (ix4 c b h w) * a (ix4 c b h w)
      + overChannels u (ix4 c b h w) * b' (ix4 c b h w) = _
  rw [overChannels_apply, overChannels_apply]
  rfl

/-- The kernel program's result at one entry is the nested arrangement of the eight corners of the pixel's cell: bins are at most 31, so the eight merged positions are the eight lattice corners. -/
theorem kernel_at (L : FVec Ideal SL .f32) (x : FVec Ideal SX .f32) (b : Fin 8) (c : Fin 3) (h w : Fin 1024) :
    combine (side (flatTable L) (basePos (cell 0 x) (cell 1 x) (cell 2 x)) (off 0 x) (off 1 x) 0#32 1#32 33#32 34#32)
        (side (flatTable L) (basePos (cell 0 x) (cell 1 x) (cell 2 x)) (off 0 x) (off 1 x) 1089#32 1090#32 1122#32 1123#32)
        (off 2 x) (ix4 b c h w)
      = nestedAt oneE (off 0 x (ix3 b h w)) (off 1 x (ix3 b h w)) (off 2 x (ix3 b h w))
          (fun db dg dr => tableAt L c ((cell 2 x (ix3 b h w)).toNat + db.val) ((cell 1 x (ix3 b h w)).toNat + dg.val)
            ((cell 0 x (ix3 b h w)).toNat + dr.val)) := by
  have hr := cell_toNat_le 0 x (ix3 b h w)
  have hg := cell_toNat_le 1 x (ix3 b h w)
  have hb := cell_toNat_le 2 x (ix3 b h w)
  show (oneE - off 2 x (ix3 b h w))
        * side (flatTable L) (basePos (cell 0 x) (cell 1 x) (cell 2 x)) (off 0 x) (off 1 x) 0#32 1#32 33#32 34#32 (ix4 c b h w)
      + off 2 x (ix3 b h w)
        * side (flatTable L) (basePos (cell 0 x) (cell 1 x) (cell 2 x)) (off 0 x) (off 1 x) 1089#32 1090#32 1122#32 1123#32 (ix4 c b h w) = _
  unfold side nestedAt
  simp only [lerp_apply]
  rw [flatCorner_apply L _ _ _ 0#32 0 0 0 (by decide) (by decide) (by decide) (by decide) c b h w hr hg hb,
    flatCorner_apply L _ _ _ 1#32 0 0 1 (by decide) (by decide) (by decide) (by decide) c b h w hr hg hb,
    flatCorner_apply L _ _ _ 33#32 0 1 0 (by decide) (by decide) (by decide) (by decide) c b h w hr hg hb,
    flatCorner_apply L _ _ _ 34#32 0 1 1 (by decide) (by decide) (by decide) (by decide) c b h w hr hg hb,
    flatCorner_apply L _ _ _ 1089#32 1 0 0 (by decide) (by decide) (by decide) (by decide) c b h w hr hg hb,
    flatCorner_apply L _ _ _ 1090#32 1 0 1 (by decide) (by decide) (by decide) (by decide) c b h w hr hg hb,
    flatCorner_apply L _ _ _ 1122#32 1 1 0 (by decide) (by decide) (by decide) (by decide) c b h w hr hg hb,
    flatCorner_apply L _ _ _ 1123#32 1 1 1 (by decide) (by decide) (by decide) (by decide) c b h w hr hg hb]
  rfl

end Cert.Lut

end
-- ==== Proof.RefOps0.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops0_0 : List (HloOp τ sig (Elt F)) :=
  [ unary main_arg1 main_v0 (extractStridedSlice S8x1x1024x1024 ![0, 0, 0, 0] · slices_S8x3x1024x1024_S8x1x1024x1024_0_0_0_0),
    reshape main_v0 main_v1 rfl shapeCasts_S8x1x1024x1024_S8x1024x1024,
    unary main_arg1 main_v2 (extractStridedSlice S8x1x1024x1024 ![0, 1, 0, 0] · slices_S8x3x1024x1024_S8x1x1024x1024_0_1_0_0),
    reshape main_v2 main_v3 rfl shapeCasts_S8x1x1024x1024_S8x1024x1024,
    unary main_arg1 main_v4 (extractStridedSlice S8x1x1024x1024 ![0, 2, 0, 0] · slices_S8x3x1024x1024_S8x1x1024x1024_0_2_0_0),
    reshape main_v4 main_v5 rfl shapeCasts_S8x1x1024x1024_S8x1024x1024,
    nullary main_cst (constant S_ .f32 0x3D000000#32),
    unary main_cst main_v6 (broadcastInDim S8x1024x1024 ![] bcast_S_S8x1024x1024),
    binary main_v1 main_v6 main_v7 Host.divf,
    nullary main_cst_0 (constant S_ .f32 0x3D000000#32),
    unary main_cst_0 main_v8 (broadcastInDim S8x1024x1024 ![] bcast_S_S8x1024x1024),
    binary main_v3 main_v8 main_v9 Host.divf,
    nullary main_cst_1 (constant S_ .f32 0x3D000000#32),
    unary main_cst_1 main_v10 (broadcastInDim S8x1024x1024 ![] bcast_S_S8x1024x1024),
    binary main_v5 main_v10 main_v11 Host.divf,
    unary main_v7 main_v12 Host.floor,
    unary main_v12 main_v13 (fptosi 32),
    nullary main_c (constantI S_ 32 0#32),
    nullary main_c_2 (constantI S_ 32 31#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8x1024x1024, .i32⟩) main_call0_v1) (broadcastInDim S8x1024x1024 ![] bcast_S_S8x1024x1024),
    TRef.binary (TRef.of (T := ⟨S8x1024x1024, .i32⟩) main_call0_v1) (TRef.of (T := ⟨S8x1024x1024, .i32⟩) main_v13) (TRef.of (T := ⟨S8x1024x1024, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S8x1024x1024, .i32⟩) main_call0_v4) (broadcastInDim S8x1024x1024 ![] bcast_S_S8x1024x1024),
    TRef.binary (TRef.of (T := ⟨S8x1024x1024, .i32⟩) main_call0_v4) (TRef.of (T := ⟨S8x1024x1024, .i32⟩) main_call0_v2) (TRef.of (T := ⟨S8x1024x1024, .i32⟩) main_v14) minsi,
    unary main_v9 main_v15 Host.floor,
    unary main_v15 main_v16 (fptosi 32),
    nullary main_c_3 (constantI S_ 32 0#32),
    nullary main_c_4 (constantI S_ 32 31#32),
    TRef.unary (TRef.of (T := ⟨S_, .i32⟩) main_c_3) (TRef.of (T := ⟨S_, .i32⟩) main_call1_v0) id,
    TRef.unary (TRef.of (T := ⟨S_, .i32⟩) main_call1_v0) (TRef.of (T := ⟨S8x1024x1024, .i32⟩) main_call1_v1) (broadcastInDim S8x1024x1024 ![] bcast_S_S8x1024x1024),
    TRef.binary (TRef.of (T := ⟨S8x1024x1024, .i32⟩) main_call1_v1) (TRef.of (T := ⟨S8x1024x1024, .i32⟩) main_v16) (TRef.of (T := ⟨S8x1024x1024, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S8x1024x1024, .i32⟩) main_call1_v4) (broadcastInDim S8x1024x1024 ![] bcast_S_S8x1024x1024),
    TRef.binary (TRef.of (T := ⟨S8x1024x1024, .i32⟩) main_call1_v4) (TRef.of (T := ⟨S8x1024x1024, .i32⟩) main_call1_v2) (TRef.of (T := ⟨S8x1024x1024, .i32⟩) main_v17) minsi,
    unary main_v11 main_v18 Host.floor,
    unary main_v18 main_v19 (fptosi 32),
    nullary main_c_5 (constantI S_ 32 0#32),
    nullary main_c_6 (constantI S_ 32 31#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S8x1024x1024, .i32⟩) main_call2_v1) (broadcastInDim S8x1024x1024 ![] bcast_S_S8x1024x1024),
    TRef.binary (TRef.of (T := ⟨S8x1024x1024, .i32⟩) main_call2_v1) (TRef.of (T := ⟨S8x1024x1024, .i32⟩) main_v19) (TRef.of (T := ⟨S8x1024x1024, .i32⟩) main_call2_v2) maxsi,
    TRef.unary (TRef.of (T := ⟨S_, .i32⟩) main_c_6) (TRef.of (T := ⟨S_, .i32⟩) main_call2_v3) id,
    TRef.unary (TRef.of (T := ⟨S_, .i32⟩) main_call2_v3) (TRef.of (T := ⟨S8x1024x1024, .i32⟩) main_call2_v4) (broadcastInDim S8x1024x1024 ![] bcast_S_S8x1024x1024),
    TRef.binary (TRef.of (T := ⟨S8x1024x1024, .i32⟩) main_call2_v4) (TRef.of (T := ⟨S8x1024x1024, .i32⟩) main_call2_v2) (TRef.of (T := ⟨S8x1024x1024, .i32⟩) main_v20) minsi,
    unary main_v14 main_v21 (sitofp .f32),
    binary main_v7 main_v21 main_v22 subf,
    unary main_v17 main_v23 (sitofp .f32),
    binary main_v9 main_v23 main_v24 subf,
    unary main_v20 main_v25 (sitofp .f32),
    binary main_v11 main_v25 main_v26 subf,
    nullary main_cst_7 (constant S_ .f32 0x00000000#32),
    unary main_cst_7 main_v27 (broadcastInDim S3x8x1024x1024 ![] bcast_S_S3x8x1024x1024),
    nullary main_cst_8 (constant S_ .f32 0x3F800000#32),
    unary main_cst_8 main_v28 (broadcastInDim S8x1024x1024 ![] bcast_S_S8x1024x1024),
    binary main_v28 main_v26 main_v29 subf,
    nullary main_cst_9 (constant S_ .f32 0x3F800000#32),
    unary main_cst_9 main_v30 (broadcastInDim S8x1024x1024 ![] bcast_S_S8x1024x1024),
    binary main_v30 main_v24 main_v31 subf,
    nullary main_cst_10 (constant S_ .f32 0x3F800000#32),
    unary main_cst_10 main_v32 (broadcastInDim S8x1024x1024 ![] bcast_S_S8x1024x1024),
    binary main_v32 main_v22 main_v33 subf,
    binary main_v33 main_v31 main_v34 mulf,
    binary main_v34 main_v29 main_v35 mulf,
    nullary main_c_11 (constantI S_ 32 0#32),
    unary main_c_11 main_v36 (broadcastInDim S8x1024x1024 ![] bcast_S_S8x1024x1024),
    binary main_v20 main_v36 main_v37 addi,
    nullary main_c_12 (constantI S_ 32 0#32),
    unary main_c_12 main_v38 (broadcastInDim S8x1024x1024 ![] bcast_S_S8x1024x1024),
    binary main_v17 main_v38 main_v39 addi,
    nullary main_c_13 (constantI S_ 32 0#32),
    unary main_c_13 main_v40 (broadcastInDim S8x1024x1024 ![] bcast_S_S8x1024x1024),
    binary main_v14 main_v40 main_v41 addi,
    nullary main_c_14 (constantI S_ 32 0#32),
    unary main_c_14 main_v42 (broadcastInDim S8x1024x1024 ![] bcast_S_S8x1024x1024) ]

/-- Part 0 of @main, cut so that each concatenate stands alone. -/
abbrev ops0 : List (HloOp τ sig (Elt F)) := ops0_0

set_option maxRecDepth 8192 in
set_option maxHeartbeats 8000000 in
theorem part0_eq (d : Dev nD) : main_part0 (F := F) d = seq ops0 := rfl

set_option maxRecDepth 8192 in
set_option maxHeartbeats 8000000 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩

set_option maxRecDepth 8192 in
set_option maxHeartbeats 8000000 in
theorem ops0_fresh : ∀ op ∈ (ops0 : List (HloOp τ sig (Elt F))), op.fresh = ∅ := by
  intro _ h; (repeat (cases h with | head => rfl | tail _ h => ?_)); exact nomatch h

end Cert.ReferenceIdeal.RunH

end
-- ==== Proof.LibNary3.lean ====
import Idealize.ShloMosaic.Lib.StableHlo.Run

noncomputable section

namespace Cert.LibNary3

open Idealize.ShloMosaic Idealize.ShloMosaic.StableHlo Idealize.SL.Sem

variable {τ : Topo} {sig : RefSig} {Val : EltTy → Type}

/-- An operation over a literal family of three operands applies its function to the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting key. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same with the three operands' contents known. -/
theorem nary3_result_of {x a b y : Ref sig .tc}
    (f : ((k : Fin 3) → ((![x, a, b] : Fin 3 → Ref sig .tc) k).ty.Contents Val) → y.ty.Contents Val) (hxs hy)
    (F : Valuation τ sig Val) {vx : x.ty.Contents Val} {va : a.ty.Contents Val} {vb : b.ty.Contents Val}
    (hx : F (Proc.devRef .tc x) = vx) (ha : F (Proc.devRef .tc a) = va) (hb : F (Proc.devRef .tc b) = vb) :
    (nary (τ := τ) ![x, a, b] y f hxs hy).result F (Proc.devRef .tc y)
      = f (Fin.cons vx (Fin.cons va (Fin.cons vb (fun i => i.elim0)))) := by
  subst hx ha hb
  exact nary3_result f hxs hy F

/-- A line's results in one pass, a three-operand operation's operands each read at its own reference. -/
macro "line_results3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3

end
-- ==== Proof.RefAlive.lean ====
import proofs.«415802_j20744692039901_3_alg».proof.Proof.Gen.ReferenceIdeal
import proofs.«415802_j20744692039901_3_alg».proof.Proof.Spec
import proofs.«415802_j20744692039901_3_alg».proof.Proof.LibNary3

noncomputable section

namespace Cert.ReferenceIdeal.RunH

open Cert.ReferenceIdeal Cert.ReferenceIdeal.Gen Idealize.ShloMosaic Idealize.ShloMosaic.TcCoe Idealize.SL.Sem Idealize.ShloMosaic.StableHlo Cert.Lut Cert.LibNary3

variable {F : FTy → Type} [FloatOps F] (x0 : FVec F SL .f32) (x1 : FVec F SX .f32) (W : Valuation τ sig (Elt F))

/-- The two arguments hold the table `x0` and the image `x1`. -/
def Args : Prop := W (Proc.devRef .tc main_arg0) = x0 ∧ W (Proc.devRef .tc main_arg1) = x1

/-- What every corner reads: the arguments, the three cell numbers and the three offsets. -/
def Shared : Prop :=
  W (Proc.devRef .tc main_arg0) = x0 ∧
    W (Proc.devRef .tc main_arg1) = x1 ∧
    W (Proc.devRef .tc main_v14) = cell 0 x1 ∧
    W (Proc.devRef .tc main_v17) = cell 1 x1 ∧
    W (Proc.devRef .tc main_v20) = cell 2 x1 ∧
    W (Proc.devRef .tc main_v22) = off 0 x1 ∧
    W (Proc.devRef .tc main_v24) = off 1 x1 ∧
    W (Proc.devRef .tc main_v26) = off 2 x1

/-- `AliveK_s`: what the arrays still read after stretch `opsK_s` hold, in the interpolation's own terms. -/
def Alive0_0 : Prop :=
  Shared x0 x1 W ∧
    W (Proc.devRef .tc main_v27) = broadcastInDim SC ![] bc0C (constant S0 .f32 0x00000000#32) ∧
    W (Proc.devRef .tc main_v29) = comp (off 2 x1) ∧
    W (Proc.devRef .tc main_v31) = comp (off 1 x1) ∧
    W (Proc.devRef .tc main_v35) = mulf (mulf (comp (off 0 x1)) (comp (off 1 x1))) (comp (off 2 x1)) ∧
    W (Proc.devRef .tc main_v37) = stepBy (cell 2 x1) 0#32 ∧
    W (Proc.devRef .tc main_v39) = stepBy (cell 1 x1) 0#32 ∧
    W (Proc.devRef .tc main_v41) = stepBy (cell 0 x1) 0#32 ∧
    W (Proc.devRef .tc main_v42) = broadcastInDim SP ![] bc0P (constantI S0 32 0#32)

def Alive1_0 : Prop :=
  Shared x0 x1 W ∧
    W (Proc.devRef .tc main_v27) = broadcastInDim SC ![] bc0C (constant S0 .f32 0x00000000#32) ∧
    W (Proc.devRef .tc main_v29) = comp (off 2 x1) ∧
    W (Proc.devRef .tc main_v31) = comp (off 1 x1) ∧
    W (Proc.devRef .tc main_v35) = mulf (mulf (comp (off 0 x1)) (comp (off 1 x1))) (comp (off 2 x1)) ∧
    W (Proc.devRef .tc main_v57) = startIdx (stepBy (cell 2 x1) 0#32) ∧
    W (Proc.devRef .tc main_v58) = startIdx (stepBy (cell 1 x1) 0#32) ∧
    W (Proc.devRef .tc main_v59) = startIdx (stepBy (cell 0 x1) 0#32)

def Alive1_1 : Prop :=
  Shared x0 x1 W ∧
    W (Proc.devRef .tc main_v27) = broadcastInDim SC ![] bc0C (constant S0 .f32 0x00000000#32) ∧
    W (Proc.devRef .tc main_v29) = comp (off 2 x1) ∧
    W (Proc.devRef .tc main_v31) = comp (off 1 x1) ∧
    W (Proc.devRef .tc main_v35) = mulf (mulf (comp (off 0 x1)) (comp (off 1 x1))) (comp (off 2 x1)) ∧
    W (Proc.devRef .tc main_v60) = startIdx3 (stepBy (cell 2 x1) 0#32) (stepBy (cell 1 x1) 0#32) (stepBy (cell 0 x1) 0#32)

def Alive1_2 : Prop :=
  Shared x0 x1 W ∧
    W (Proc.devRef .tc main_v29) = comp (off 2 x1) ∧
    W (Proc.devRef .tc main_v65) = acc1 x0 x1 ∧
    W (Proc.devRef .tc main_v67) = mulf (mulf (off 0 x1) (comp (off 1 x1))) (comp (off 2 x1)) ∧
    W (Proc.devRef .tc main_v78) = wrapNeg 33#32 (stepBy (cell 2 x1) 0#32) ∧
    W (Proc.devRef .tc main_v83) = wrapNeg 33#32 (stepBy (cell 1 x1) 0#32) ∧
    W (Proc.devRef .tc main_v88) = wrapNeg 33#32 (stepBy (cell 0 x1) 1#32)

def Alive2_0 : Prop :=
  Shared x0 x1 W ∧
    W (Proc.devRef .tc main_v29) = comp (off 2 x1) ∧
    W (Proc.devRef .tc main_v65) = acc1 x0 x1 ∧
    W (Proc.devRef .tc main_v67) = mulf (mulf (off 0 x1) (comp (off 1 x1))) (comp (off 2 x1)) ∧
    W (Proc.devRef .tc main_v89) = startIdx (stepBy (cell 2 x1) 0#32) ∧
    W (Proc.devRef .tc main_v90) = startIdx (stepBy (cell 1 x1) 0#32) ∧
    W (Proc.devRef .tc main_v91) = startIdx (stepBy (cell 0 x1) 1#32)

def Alive2_1 : Prop :=
  Shared x0 x1 W ∧
    W (Proc.devRef .tc main_v29) = comp (off 2 x1) ∧
    W (Proc.devRef .tc main_v65) = acc1 x0 x1 ∧
    W (Proc.devRef .tc main_v67) = mulf (mulf (off 0 x1) (comp (off 1 x1))) (comp (off 2 x1)) ∧
    W (Proc.devRef .tc main_v92) = startIdx3 (stepBy (cell 2 x1) 0#32) (stepBy (cell 1 x1) 0#32) (stepBy (cell 0 x1) 1#32)

def Alive2_2 : Prop :=
  Shared x0 x1 W ∧
    W (Proc.devRef .tc main_v29) = comp (off 2 x1) ∧
    W (Proc.devRef .tc main_v97) = acc2 x0 x1 ∧
    W (Proc.devRef .tc main_v101) = mulf (mulf (comp (off 0 x1)) (off 1 x1)) (comp (off 2 x1)) ∧
    W (Proc.devRef .tc main_v123) = startIdx (stepBy (cell 2 x1) 0#32) ∧
    W (Proc.devRef .tc main_v124) = startIdx (stepBy (cell 1 x1) 1#32) ∧
    W (Proc.devRef .tc main_v125) = startIdx (stepBy (cell 0 x1) 0#32)

def Alive2_3 : Prop :=
  Shared x0 x1 W ∧
    W (Proc.devRef .tc main_v29) = comp (off 2 x1) ∧
    W (Proc.devRef .tc main_v97) = acc2 x0 x1 ∧
    W (Proc.devRef .tc main_v101) = mulf (mulf (comp (off 0 x1)) (off 1 x1)) (comp (off 2 x1)) ∧
    W (Proc.devRef .tc main_v126) = startIdx3 (stepBy (cell 2 x1) 0#32) (stepBy (cell 1 x1) 1#32) (stepBy (cell 0 x1) 0#32)

def Alive2_4 : Prop :=
  Shared x0 x1 W ∧
    W (Proc.devRef .tc main_v131) = acc3 x0 x1 ∧
    W (Proc.devRef .tc main_v133) = mulf (mulf (off 0 x1) (off 1 x1)) (comp (off 2 x1)) ∧
    W (Proc.devRef .tc main_v135) = stepBy (cell 2 x1) 0#32 ∧
    W (Proc.devRef .tc main_v136) = broadcastInDim SP ![] bc0P (constantI S0 32 1#32)

def Alive3_0 : Prop :=
  Shared x0 x1 W ∧
    W (Proc.devRef .tc main_v131) = acc3 x0 x1 ∧
    W (Proc.devRef .tc main_v133) = mulf (mulf (off 0 x1) (off 1 x1)) (comp (off 2 x1)) ∧
    W (Proc.devRef .tc main_v155) = startIdx (stepBy (cell 2 x1) 0#32) ∧
    W (Proc.devRef .tc main_v156) = startIdx (stepBy (cell 1 x1) 1#32) ∧
    W (Proc.devRef .tc main_v157) = startIdx (stepBy (cell 0 x1) 1#32)

def Alive3_1 : Prop :=
  Shared x0 x1 W ∧
    W (Proc.devRef .tc main_v131) = acc3 x0 x1 ∧
    W (Proc.devRef .tc main_v133) = mulf (mulf (off 0 x1) (off 1 x1)) (comp (off 2 x1)) ∧
    W (Proc.devRef .tc main_v158) = startIdx3 (stepBy (cell 2 x1) 0#32) (stepBy (cell 1 x1) 1#32) (stepBy (cell 0 x1) 1#32)

def Alive3_2 : Prop :=
  Shared x0 x1 W ∧
    W (Proc.devRef .tc main_v163) = acc4 x0 x1 ∧
    W (Proc.devRef .tc main_v165) = comp (off 1 x1) ∧
    W (Proc.devRef .tc main_v169) = mulf (mulf (comp (off 0 x1)) (comp (off 1 x1))) (off 2 x1) ∧
    W (Proc.devRef .tc main_v173) = stepBy (cell 1 x1) 0#32 ∧
    W (Proc.devRef .tc main_v175) = stepBy (cell 0 x1) 0#32 ∧
    W (Proc.devRef .tc main_v180) = wrapNeg 33#32 (stepBy (cell 2 x1) 1#32) ∧
    W (Proc.devRef .tc main_v181) = broadcastInDim SP ![] bc0P (constantI S0 32 0#32)

def Alive4_0 : Prop :=
  Shared x0 x1 W ∧
    W (Proc.devRef .tc main_v163) = acc4 x0 x1 ∧
    W (Proc.devRef .tc main_v165) = comp (off 1 x1) ∧
    W (Proc.devRef .tc main_v169) = mulf (mulf (comp (off 0 x1)) (comp (off 1 x1))) (off 2 x1) ∧
    W (Proc.devRef .tc main_v191) = startIdx (stepBy (cell 2 x1) 1#32) ∧
    W (Proc.devRef .tc main_v192) = startIdx (stepBy (cell 1 x1) 0#32) ∧
    W (Proc.devRef .tc main_v193) = startIdx (stepBy (cell 0 x1) 0#32)

def Alive4_1 : Prop :=
  Shared x0 x1 W ∧
    W (Proc.devRef .tc main_v163) = acc4 x0 x1 ∧
    W (Proc.devRef .tc main_v165) = comp (off 1 x1) ∧
    W (Proc.devRef .tc main_v169) = mulf (mulf (comp (off 0 x1)) (comp (off 1 x1))) (off 2 x1) ∧
    W (Proc.devRef .tc main_v194) = startIdx3 (stepBy (cell 2 x1) 1#32) (stepBy (cell 1 x1) 0#32) (stepBy (cell 0 x1) 0#32)

def Alive4_2 : Prop :=
  Shared x0 x1 W ∧
    W (Proc.devRef .tc main_v199) = acc5 x0 x1 ∧
    W (Proc.devRef .tc main_v201) = mulf (mulf (off 0 x1) (comp (off 1 x1))) (off 2 x1) ∧
    W (Proc.devRef .tc main_v223) = startIdx (stepBy (cell 2 x1) 1#32) ∧
    W (Proc.devRef .tc main_v224) = startIdx (stepBy (cell 1 x1) 0#32) ∧
    W (Proc.devRef .tc main_v225) = startIdx (stepBy (cell 0 x1) 1#32)

def Alive4_3 : Prop :=
  Shared x0 x1 W ∧
    W (Proc.devRef .tc main_v199) = acc5 x0 x1 ∧
    W (Proc.devRef .tc main_v201) = mulf (mulf (off 0 x1) (comp (off 1 x1))) (off 2 x1) ∧
    W (Proc.devRef .tc main_v226) = startIdx3 (stepBy (cell 2 x1) 1#32) (stepBy (cell 1 x1) 0#32) (stepBy (cell 0 x1) 1#32)

def Alive4_4 : Prop :=
  Shared x0 x1 W ∧
    W (Proc.devRef .tc main_v199) = acc5 x0 x1 ∧
    W (Proc.devRef .tc main_v227) = corner x0 x1 1#32 0#32 1#32 ∧
    W (Proc.devRef .tc main_v229) = overChannels (mulf (mulf (off 0 x1) (comp (off 1 x1))) (off 2 x1))

def Alive5_0 : Prop :=
  Shared x0 x1 W ∧
    W (Proc.devRef .tc main_v231) = acc6 x0 x1 ∧
    W (Proc.devRef .tc main_v235) = mulf (mulf (comp (off 0 x1)) (off 1 x1)) (off 2 x1) ∧
    W (Proc.devRef .tc main_v257) = startIdx (stepBy (cell 2 x1) 1#32) ∧
    W (Proc.devRef .tc main_v258) = startIdx (stepBy (cell 1 x1) 1#32) ∧
    W (Proc.devRef .tc main_v259) = startIdx (stepBy (cell 0 x1) 0#32)

def Alive5_1 : Prop :=
  Shared x0 x1 W ∧
    W (Proc.devRef .tc main_v231) = acc6 x0 x1 ∧
    W (Proc.devRef .tc main_v235) = mulf (mulf (comp (off 0 x1)) (off 1 x1)) (off 2 x1) ∧
    W (Proc.devRef .tc main_v260) = startIdx3 (stepBy (cell 2 x1) 1#32) (stepBy (cell 1 x1) 1#32) (stepBy (cell 0 x1) 0#32)

def Alive5_2 : Prop :=
  W (Proc.devRef .tc main_arg0) = x0 ∧
    W (Proc.devRef .tc main_arg1) = x1 ∧
    W (Proc.devRef .tc main_v265) = acc7 x0 x1 ∧
    W (Proc.devRef .tc main_v267) = mulf (mulf (off 0 x1) (off 1 x1)) (off 2 x1) ∧
    W (Proc.devRef .tc main_v269) = stepBy (cell 2 x1) 1#32 ∧
    W (Proc.devRef .tc main_v271) = stepBy (cell 1 x1) 1#32 ∧
    W (Proc.devRef .tc main_v273) = stepBy (cell 0 x1) 1#32 ∧
    W (Proc.devRef .tc main_v275) = cmpi .slt (stepBy (cell 2 x1) 1#32) (broadcastInDim SP ![] bc0P (constantI S0 32 0#32))

def Alive6_0 : Prop :=
  W (Proc.devRef .tc main_arg0) = x0 ∧
    W (Proc.devRef .tc main_arg1) = x1 ∧
    W (Proc.devRef .tc main_v265) = acc7 x0 x1 ∧
    W (Proc.devRef .tc main_v267) = mulf (mulf (off 0 x1) (off 1 x1)) (off 2 x1) ∧
    W (Proc.devRef .tc main_v289) = startIdx (stepBy (cell 2 x1) 1#32) ∧
    W (Proc.devRef .tc main_v290) = startIdx (stepBy (cell 1 x1) 1#32) ∧
    W (Proc.devRef .tc main_v291) = startIdx (stepBy (cell 0 x1) 1#32)

def Alive6_1 : Prop :=
  W (Proc.devRef .tc main_arg0) = x0 ∧
    W (Proc.devRef .tc main_arg1) = x1 ∧
    W (Proc.devRef .tc main_v265) = acc7 x0 x1 ∧
    W (Proc.devRef .tc main_v267) = mulf (mulf (off 0 x1) (off 1 x1)) (off 2 x1) ∧
    W (Proc.devRef .tc main_v292) = startIdx3 (stepBy (cell 2 x1) 1#32) (stepBy (cell 1 x1) 1#32) (stepBy (cell 0 x1) 1#32)

def Alive6_2 : Prop :=
  W (Proc.devRef .tc main_arg0) = x0 ∧
    W (Proc.devRef .tc main_arg1) = x1 ∧
    W (Proc.devRef .tc main_v298) = refResult x0 x1

/-- One stretch: each array alive after it is computed from the arrays alive before it, and those are known. -/
macro "alive_step " h:ident : tactic =>
  `(tactic| ((repeat' apply And.intro) <;> first
    | (line_results3; first | (simp only [$h:ident]; done) | (simp only [$h:ident]; rfl))
    | (simp only [after_cons, after_nil]
       exact (nary3_result_of _ _ _ _ (by simp only [$h:ident] <;> rfl) (by simp only [$h:ident] <;> rfl)
         (by simp only [$h:ident] <;> rfl)).trans rfl)
    | (line_results3 <;> rfl)))

end Cert.ReferenceIdeal.RunH

end
-- ==== Proof.RefStep0.lean ====
import proofs.«415802_j20744692039901_3_alg».proof.Proof.RefOps0
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step0_0 (h : Args x0 x1 W) : Alive0_0 x0 x1 (after (ops0_0 (F := F)) W) := by
  unfold Args at h; unfold Alive0_0 Shared; alive_step h

end Cert.ReferenceIdeal.RunH

end
-- ==== Proof.RefOps1.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops1_0 : List (HloOp τ sig (Elt F)) :=
  [ binary main_v37 main_v42 main_v43 (cmpi .slt),
    nullary main_c_15 (constantI S_ 32 33#32),
    unary main_c_15 main_v44 (broadcastInDim S8x1024x1024 ![] bcast_S_S8x1024x1024),
    binary main_v37 main_v44 main_v45 addi,
    ternary main_v43 main_v45 main_v37 main_v46 select,
    nullary main_c_16 (constantI S_ 32 0#32),
    unary main_c_16 main_v47 (broadcastInDim S8x1024x1024 ![] bcast_S_S8x1024x1024),
    binary main_v39 main_v47 main_v48 (cmpi .slt),
    nullary main_c_17 (constantI S_ 32 33#32),
    unary main_c_17 main_v49 (broadcastInDim S8x1024x1024 ![] bcast_S_S8x1024x1024),
    binary main_v39 main_v49 main_v50 addi,
    ternary main_v48 main_v50 main_v39 main_v51 select,
    nullary main_c_18 (constantI S_ 32 0#32),
    unary main_c_18 main_v52 (broadcastInDim S8x1024x1024 ![] bcast_S_S8x1024x1024),
    binary main_v41 main_v52 main_v53 (cmpi .slt),
    nullary main_c_19 (constantI S_ 32 33#32),
    unary main_c_19 main_v54 (broadcastInDim S8x1024x1024 ![] bcast_S_S8x1024x1024),
    binary main_v41 main_v54 main_v55 addi,
    ternary main_v53 main_v55 main_v41 main_v56 select,
    unary main_v46 main_v57 (broadcastInDim S8x1024x1024x1 ![0, 1, 2] bcast_S8x1024x1024_S8x1024x1024x1_0_1_2),
    unary main_v51 main_v58 (broadcastInDim S8x1024x1024x1 ![0, 1, 2] bcast_S8x1024x1024_S8x1024x1024x1_0_1_2),
    unary main_v56 main_v59 (broadcastInDim S8x1024x1024x1 ![0, 1, 2] bcast_S8x1024x1024_S8x1024x1024x1_0_1_2) ]

abbrev ops1_1 : List (HloOp τ sig (Elt F)) :=
  [ nary ![main_v57, main_v58, main_v59] main_v60 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops1_2 : List (HloOp τ sig (Elt F)) :=
  [ binary main_arg0 main_v60 main_v61 (fun x i => Host.gather gather_S3x33x33x33_S8x1024x1024x3_S3x8x1024x1024_0_123_n_n_123_3_3111 x i),
    unary main_v35 main_v62 (broadcastInDim S1x8x1024x1024 ![1, 2, 3] bcast_S8x1024x1024_S1x8x1024x1024_1_2_3),
    unary main_v62 main_v63 (broadcastInDim S3x8x1024x1024 ![0, 1, 2, 3] bcast_S1x8x1024x1024_S3x8x1024x1024_0_1_2_3),
    binary main_v63 main_v61 main_v64 mulf,
    binary main_v27 main_v64 main_v65 addf,
    binary main_v22 main_v31 main_v66 mulf,
    binary main_v66 main_v29 main_v67 mulf,
    nullary main_c_20 (constantI S_ 32 0#32),
    unary main_c_20 main_v68 (broadcastInDim S8x1024x1024 ![] bcast_S_S8x1024x1024),
    binary main_v20 main_v68 main_v69 addi,
    nullary main_c_21 (constantI S_ 32 0#32),
    unary main_c_21 main_v70 (broadcastInDim S8x1024x1024 ![] bcast_S_S8x1024x1024),
    binary main_v17 main_v70 main_v71 addi,
    nullary main_c_22 (constantI S_ 32 1#32),
    unary main_c_22 main_v72 (broadcastInDim S8x1024x1024 ![] bcast_S_S8x1024x1024),
    binary main_v14 main_v72 main_v73 addi,
    nullary main_c_23 (constantI S_ 32 0#32),
    unary main_c_23 main_v74 (broadcastInDim S8x1024x1024 ![] bcast_S_S8x1024x1024),
    binary main_v69 main_v74 main_v75 (cmpi .slt),
    nullary main_c_24 (constantI S_ 32 33#32),
    unary main_c_24 main_v76 (broadcastInDim S8x1024x1024 ![] bcast_S_S8x1024x1024),
    binary main_v69 main_v76 main_v77 addi,
    ternary main_v75 main_v77 main_v69 main_v78 select,
    nullary main_c_25 (constantI S_ 32 0#32),
    unary main_c_25 main_v79 (broadcastInDim S8x1024x1024 ![] bcast_S_S8x1024x1024),
    binary main_v71 main_v79 main_v80 (cmpi .slt),
    nullary main_c_26 (constantI S_ 32 33#32),
    unary main_c_26 main_v81 (broadcastInDim S8x1024x1024 ![] bcast_S_S8x1024x1024),
    binary main_v71 main_v81 main_v82 addi,
    ternary main_v80 main_v82 main_v71 main_v83 select,
    nullary main_c_27 (constantI S_ 32 0#32),
    unary main_c_27 main_v84 (broadcastInDim S8x1024x1024 ![] bcast_S_S8x1024x1024),
    binary main_v73 main_v84 main_v85 (cmpi .slt),
    nullary main_c_28 (constantI S_ 32 33#32),
    unary main_c_28 main_v86 (broadcastInDim S8x1024x1024 ![] bcast_S_S8x1024x1024),
    binary main_v73 main_v86 main_v87 addi,
    ternary main_v85 main_v87 main_v73 main_v88 select ]

/-- Part 1 of @main, cut so that each concatenate stands alone. -/
abbrev ops1 : List (HloOp τ sig (Elt F)) := ops1_0 ++ (ops1_1 ++ ops1_2)

set_option maxRecDepth 8192 in
set_option maxHeartbeats 8000000 in
theorem part1_eq (d : Dev nD) : main_part1 (F := F) d = seq ops1 := rfl

set_option maxRecDepth 8192 in
set_option maxHeartbeats 8000000 in
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

set_option maxRecDepth 8192 in
set_option maxHeartbeats 8000000 in
theorem ops1_fresh : ∀ op ∈ (ops1 : List (HloOp τ sig (Elt F))), op.fresh = ∅ := by
  intro _ h; (repeat (cases h with | head => rfl | tail _ h => ?_)); exact nomatch h

end Cert.ReferenceIdeal.RunH

end
-- ==== Proof.RefStep1.lean ====
import proofs.«415802_j20744692039901_3_alg».proof.Proof.RefOps1
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step1_0 (h : Alive0_0 x0 x1 W) : Alive1_0 x0 x1 (after (ops1_0 (F := F)) W) := by
  unfold Alive0_0 Shared at h; unfold Alive1_0 Shared; alive_step h

theorem step1_1 (h : Alive1_0 x0 x1 W) : Alive1_1 x0 x1 (after (ops1_1 (F := F)) W) := by
  unfold Alive1_0 Shared at h; unfold Alive1_1 Shared; alive_step h

theorem step1_2 (h : Alive1_1 x0 x1 W) : Alive1_2 x0 x1 (after (ops1_2 (F := F)) W) := by
  unfold Alive1_1 Shared at h; unfold Alive1_2 Shared; alive_step h

end Cert.ReferenceIdeal.RunH

end
-- ==== Proof.RefOps2.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops2_0 : List (HloOp τ sig (Elt F)) :=
  [ unary main_v78 main_v89 (broadcastInDim S8x1024x1024x1 ![0, 1, 2] bcast_S8x1024x1024_S8x1024x1024x1_0_1_2),
    unary main_v83 main_v90 (broadcastInDim S8x1024x1024x1 ![0, 1, 2] bcast_S8x1024x1024_S8x1024x1024x1_0_1_2),
    unary main_v88 main_v91 (broadcastInDim S8x1024x1024x1 ![0, 1, 2] bcast_S8x1024x1024_S8x1024x1024x1_0_1_2) ]

abbrev ops2_1 : List (HloOp τ sig (Elt F)) :=
  [ nary ![main_v89, main_v90, main_v91] main_v92 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops2_2 : List (HloOp τ sig (Elt F)) :=
  [ binary main_arg0 main_v92 main_v93 (fun x i => Host.gather gather_S3x33x33x33_S8x1024x1024x3_S3x8x1024x1024_0_123_n_n_123_3_3111 x i),
    unary main_v67 main_v94 (broadcastInDim S1x8x1024x1024 ![1, 2, 3] bcast_S8x1024x1024_S1x8x1024x1024_1_2_3),
    unary main_v94 main_v95 (broadcastInDim S3x8x1024x1024 ![0, 1, 2, 3] bcast_S1x8x1024x1024_S3x8x1024x1024_0_1_2_3),
    binary main_v95 main_v93 main_v96 mulf,
    binary main_v65 main_v96 main_v97 addf,
    nullary main_cst_29 (constant S_ .f32 0x3F800000#32),
    unary main_cst_29 main_v98 (broadcastInDim S8x1024x1024 ![] bcast_S_S8x1024x1024),
    binary main_v98 main_v22 main_v99 subf,
    binary main_v99 main_v24 main_v100 mulf,
    binary main_v100 main_v29 main_v101 mulf,
    nullary main_c_30 (constantI S_ 32 0#32),
    unary main_c_30 main_v102 (broadcastInDim S8x1024x1024 ![] bcast_S_S8x1024x1024),
    binary main_v20 main_v102 main_v103 addi,
    nullary main_c_31 (constantI S_ 32 1#32),
    unary main_c_31 main_v104 (broadcastInDim S8x1024x1024 ![] bcast_S_S8x1024x1024),
    binary main_v17 main_v104 main_v105 addi,
    nullary main_c_32 (constantI S_ 32 0#32),
    unary main_c_32 main_v106 (broadcastInDim S8x1024x1024 ![] bcast_S_S8x1024x1024),
    binary main_v14 main_v106 main_v107 addi,
    nullary main_c_33 (constantI S_ 32 0#32),
    unary main_c_33 main_v108 (broadcastInDim S8x1024x1024 ![] bcast_S_S8x1024x1024),
    binary main_v103 main_v108 main_v109 (cmpi .slt),
    nullary main_c_34 (constantI S_ 32 33#32),
    unary main_c_34 main_v110 (broadcastInDim S8x1024x1024 ![] bcast_S_S8x1024x1024),
    binary main_v103 main_v110 main_v111 addi,
    ternary main_v109 main_v111 main_v103 main_v112 select,
    nullary main_c_35 (constantI S_ 32 0#32),
    unary main_c_35 main_v113 (broadcastInDim S8x1024x1024 ![] bcast_S_S8x1024x1024),
    binary main_v105 main_v113 main_v114 (cmpi .slt),
    nullary main_c_36 (constantI S_ 32 33#32),
    unary main_c_36 main_v115 (broadcastInDim S8x1024x1024 ![] bcast_S_S8x1024x1024),
    binary main_v105 main_v115 main_v116 addi,
    ternary main_v114 main_v116 main_v105 main_v117 select,
    nullary main_c_37 (constantI S_ 32 0#32),
    unary main_c_37 main_v118 (broadcastInDim S8x1024x1024 ![] bcast_S_S8x1024x1024),
    binary main_v107 main_v118 main_v119 (cmpi .slt),
    nullary main_c_38 (constantI S_ 32 33#32),
    unary main_c_38 main_v120 (broadcastInDim S8x1024x1024 ![] bcast_S_S8x1024x1024),
    binary main_v107 main_v120 main_v121 addi,
    ternary main_v119 main_v121 main_v107 main_v122 select,
    unary main_v112 main_v123 (broadcastInDim S8x1024x1024x1 ![0, 1, 2] bcast_S8x1024x1024_S8x1024x1024x1_0_1_2),
    unary main_v117 main_v124 (broadcastInDim S8x1024x1024x1 ![0, 1, 2] bcast_S8x1024x1024_S8x1024x1024x1_0_1_2),
    unary main_v122 main_v125 (broadcastInDim S8x1024x1024x1 ![0, 1, 2] bcast_S8x1024x1024_S8x1024x1024x1_0_1_2) ]

abbrev ops2_3 : List (HloOp τ sig (Elt F)) :=
  [ nary ![main_v123, main_v124, main_v125] main_v126 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops2_4 : List (HloOp τ sig (Elt F)) :=
  [ binary main_arg0 main_v126 main_v127 (fun x i => Host.gather gather_S3x33x33x33_S8x1024x1024x3_S3x8x1024x1024_0_123_n_n_123_3_3111 x i),
    unary main_v101 main_v128 (broadcastInDim S1x8x1024x1024 ![1, 2, 3] bcast_S8x1024x1024_S1x8x1024x1024_1_2_3),
    unary main_v128 main_v129 (broadcastInDim S3x8x1024x1024 ![0, 1, 2, 3] bcast_S1x8x1024x1024_S3x8x1024x1024_0_1_2_3),
    binary main_v129 main_v127 main_v130 mulf,
    binary main_v97 main_v130 main_v131 addf,
    binary main_v22 main_v24 main_v132 mulf,
    binary main_v132 main_v29 main_v133 mulf,
    nullary main_c_39 (constantI S_ 32 0#32),
    unary main_c_39 main_v134 (broadcastInDim S8x1024x1024 ![] bcast_S_S8x1024x1024),
    binary main_v20 main_v134 main_v135 addi,
    nullary main_c_40 (constantI S_ 32 1#32),
    unary main_c_40 main_v136 (broadcastInDim S8x1024x1024 ![] bcast_S_S8x1024x1024) ]

/-- Part 2 of @main, cut so that each concatenate stands alone. -/
abbrev ops2 : List (HloOp τ sig (Elt F)) := ops2_0 ++ (ops2_1 ++ (ops2_2 ++ (ops2_3 ++ ops2_4)))

set_option maxRecDepth 8192 in
set_option maxHeartbeats 8000000 in
theorem part2_eq (d : Dev nD) : main_part2 (F := F) d = seq ops2 := rfl

set_option maxRecDepth 8192 in
set_option maxHeartbeats 8000000 in
theorem ops2_sub : (ops2 : List (HloOp τ sig (Elt F))).Forall fun op => op.bufs ⊆ tcRefs τ sig :=
  ⟨unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩

set_option maxRecDepth 8192 in
set_option maxHeartbeats 8000000 in
theorem ops2_fresh : ∀ op ∈ (ops2 : List (HloOp τ sig (Elt F))), op.fresh = ∅ := by
  intro _ h; (repeat (cases h with | head => rfl | tail _ h => ?_)); exact nomatch h

end Cert.ReferenceIdeal.RunH

end
-- ==== Proof.RefStep2.lean ====
import proofs.«415802_j20744692039901_3_alg».proof.Proof.RefOps2
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step2_0 (h : Alive1_2 x0 x1 W) : Alive2_0 x0 x1 (after (ops2_0 (F := F)) W) := by
  unfold Alive1_2 Shared at h; unfold Alive2_0 Shared; alive_step h

theorem step2_1 (h : Alive2_0 x0 x1 W) : Alive2_1 x0 x1 (after (ops2_1 (F := F)) W) := by
  unfold Alive2_0 Shared at h; unfold Alive2_1 Shared; alive_step h

theorem step2_2 (h : Alive2_1 x0 x1 W) : Alive2_2 x0 x1 (after (ops2_2 (F := F)) W) := by
  unfold Alive2_1 Shared at h; unfold Alive2_2 Shared; alive_step h

theorem step2_3 (h : Alive2_2 x0 x1 W) : Alive2_3 x0 x1 (after (ops2_3 (F := F)) W) := by
  unfold Alive2_2 Shared at h; unfold Alive2_3 Shared; alive_step h

theorem step2_4 (h : Alive2_3 x0 x1 W) : Alive2_4 x0 x1 (after (ops2_4 (F := F)) W) := by
  unfold Alive2_3 Shared at h; unfold Alive2_4 Shared; alive_step h

end Cert.ReferenceIdeal.RunH

end
-- ==== Proof.RefOps3.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops3_0 : List (HloOp τ sig (Elt F)) :=
  [ binary main_v17 main_v136 main_v137 addi,
    nullary main_c_41 (constantI S_ 32 1#32),
    unary main_c_41 main_v138 (broadcastInDim S8x1024x1024 ![] bcast_S_S8x1024x1024),
    binary main_v14 main_v138 main_v139 addi,
    nullary main_c_42 (constantI S_ 32 0#32),
    unary main_c_42 main_v140 (broadcastInDim S8x1024x1024 ![] bcast_S_S8x1024x1024),
    binary main_v135 main_v140 main_v141 (cmpi .slt),
    nullary main_c_43 (constantI S_ 32 33#32),
    unary main_c_43 main_v142 (broadcastInDim S8x1024x1024 ![] bcast_S_S8x1024x1024),
    binary main_v135 main_v142 main_v143 addi,
    ternary main_v141 main_v143 main_v135 main_v144 select,
    nullary main_c_44 (constantI S_ 32 0#32),
    unary main_c_44 main_v145 (broadcastInDim S8x1024x1024 ![] bcast_S_S8x1024x1024),
    binary main_v137 main_v145 main_v146 (cmpi .slt),
    nullary main_c_45 (constantI S_ 32 33#32),
    unary main_c_45 main_v147 (broadcastInDim S8x1024x1024 ![] bcast_S_S8x1024x1024),
    binary main_v137 main_v147 main_v148 addi,
    ternary main_v146 main_v148 main_v137 main_v149 select,
    nullary main_c_46 (constantI S_ 32 0#32),
    unary main_c_46 main_v150 (broadcastInDim S8x1024x1024 ![] bcast_S_S8x1024x1024),
    binary main_v139 main_v150 main_v151 (cmpi .slt),
    nullary main_c_47 (constantI S_ 32 33#32),
    unary main_c_47 main_v152 (broadcastInDim S8x1024x1024 ![] bcast_S_S8x1024x1024),
    binary main_v139 main_v152 main_v153 addi,
    ternary main_v151 main_v153 main_v139 main_v154 select,
    unary main_v144 main_v155 (broadcastInDim S8x1024x1024x1 ![0, 1, 2] bcast_S8x1024x1024_S8x1024x1024x1_0_1_2),
    unary main_v149 main_v156 (broadcastInDim S8x1024x1024x1 ![0, 1, 2] bcast_S8x1024x1024_S8x1024x1024x1_0_1_2),
    unary main_v154 main_v157 (broadcastInDim S8x1024x1024x1 ![0, 1, 2] bcast_S8x1024x1024_S8x1024x1024x1_0_1_2) ]

abbrev ops3_1 : List (HloOp τ sig (Elt F)) :=
  [ nary ![main_v155, main_v156, main_v157] main_v158 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops3_2 : List (HloOp τ sig (Elt F)) :=
  [ binary main_arg0 main_v158 main_v159 (fun x i => Host.gather gather_S3x33x33x33_S8x1024x1024x3_S3x8x1024x1024_0_123_n_n_123_3_3111 x i),
    unary main_v133 main_v160 (broadcastInDim S1x8x1024x1024 ![1, 2, 3] bcast_S8x1024x1024_S1x8x1024x1024_1_2_3),
    unary main_v160 main_v161 (broadcastInDim S3x8x1024x1024 ![0, 1, 2, 3] bcast_S1x8x1024x1024_S3x8x1024x1024_0_1_2_3),
    binary main_v161 main_v159 main_v162 mulf,
    binary main_v131 main_v162 main_v163 addf,
    nullary main_cst_48 (constant S_ .f32 0x3F800000#32),
    unary main_cst_48 main_v164 (broadcastInDim S8x1024x1024 ![] bcast_S_S8x1024x1024),
    binary main_v164 main_v24 main_v165 subf,
    nullary main_cst_49 (constant S_ .f32 0x3F800000#32),
    unary main_cst_49 main_v166 (broadcastInDim S8x1024x1024 ![] bcast_S_S8x1024x1024),
    binary main_v166 main_v22 main_v167 subf,
    binary main_v167 main_v165 main_v168 mulf,
    binary main_v168 main_v26 main_v169 mulf,
    nullary main_c_50 (constantI S_ 32 1#32),
    unary main_c_50 main_v170 (broadcastInDim S8x1024x1024 ![] bcast_S_S8x1024x1024),
    binary main_v20 main_v170 main_v171 addi,
    nullary main_c_51 (constantI S_ 32 0#32),
    unary main_c_51 main_v172 (broadcastInDim S8x1024x1024 ![] bcast_S_S8x1024x1024),
    binary main_v17 main_v172 main_v173 addi,
    nullary main_c_52 (constantI S_ 32 0#32),
    unary main_c_52 main_v174 (broadcastInDim S8x1024x1024 ![] bcast_S_S8x1024x1024),
    binary main_v14 main_v174 main_v175 addi,
    nullary main_c_53 (constantI S_ 32 0#32),
    unary main_c_53 main_v176 (broadcastInDim S8x1024x1024 ![] bcast_S_S8x1024x1024),
    binary main_v171 main_v176 main_v177 (cmpi .slt),
    nullary main_c_54 (constantI S_ 32 33#32),
    unary main_c_54 main_v178 (broadcastInDim S8x1024x1024 ![] bcast_S_S8x1024x1024),
    binary main_v171 main_v178 main_v179 addi,
    ternary main_v177 main_v179 main_v171 main_v180 select,
    nullary main_c_55 (constantI S_ 32 0#32),
    unary main_c_55 main_v181 (broadcastInDim S8x1024x1024 ![] bcast_S_S8x1024x1024) ]

/-- Part 3 of @main, cut so that each concatenate stands alone. -/
abbrev ops3 : List (HloOp τ sig (Elt F)) := ops3_0 ++ (ops3_1 ++ ops3_2)

set_option maxRecDepth 8192 in
set_option maxHeartbeats 8000000 in
theorem part3_eq (d : Dev nD) : main_part3 (F := F) d = seq ops3 := rfl

set_option maxRecDepth 8192 in
set_option maxHeartbeats 8000000 in
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
set_option maxHeartbeats 8000000 in
theorem ops3_fresh : ∀ op ∈ (ops3 : List (HloOp τ sig (Elt F))), op.fresh = ∅ := by
  intro _ h; (repeat (cases h with | head => rfl | tail _ h => ?_)); exact nomatch h

end Cert.ReferenceIdeal.RunH

end
-- ==== Proof.RefStep3.lean ====
import proofs.«415802_j20744692039901_3_alg».proof.Proof.RefOps3
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step3_0 (h : Alive2_4 x0 x1 W) : Alive3_0 x0 x1 (after (ops3_0 (F := F)) W) := by
  unfold Alive2_4 Shared at h; unfold Alive3_0 Shared; alive_step h

theorem step3_1 (h : Alive3_0 x0 x1 W) : Alive3_1 x0 x1 (after (ops3_1 (F := F)) W) := by
  unfold Alive3_0 Shared at h; unfold Alive3_1 Shared; alive_step h

theorem step3_2 (h : Alive3_1 x0 x1 W) : Alive3_2 x0 x1 (after (ops3_2 (F := F)) W) := by
  unfold Alive3_1 Shared at h; unfold Alive3_2 Shared; alive_step h

end Cert.ReferenceIdeal.RunH

end
-- ==== Proof.RefOps4.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops4_0 : List (HloOp τ sig (Elt F)) :=
  [ binary main_v173 main_v181 main_v182 (cmpi .slt),
    nullary main_c_56 (constantI S_ 32 33#32),
    unary main_c_56 main_v183 (broadcastInDim S8x1024x1024 ![] bcast_S_S8x1024x1024),
    binary main_v173 main_v183 main_v184 addi,
    ternary main_v182 main_v184 main_v173 main_v185 select,
    nullary main_c_57 (constantI S_ 32 0#32),
    unary main_c_57 main_v186 (broadcastInDim S8x1024x1024 ![] bcast_S_S8x1024x1024),
    binary main_v175 main_v186 main_v187 (cmpi .slt),
    nullary main_c_58 (constantI S_ 32 33#32),
    unary main_c_58 main_v188 (broadcastInDim S8x1024x1024 ![] bcast_S_S8x1024x1024),
    binary main_v175 main_v188 main_v189 addi,
    ternary main_v187 main_v189 main_v175 main_v190 select,
    unary main_v180 main_v191 (broadcastInDim S8x1024x1024x1 ![0, 1, 2] bcast_S8x1024x1024_S8x1024x1024x1_0_1_2),
    unary main_v185 main_v192 (broadcastInDim S8x1024x1024x1 ![0, 1, 2] bcast_S8x1024x1024_S8x1024x1024x1_0_1_2),
    unary main_v190 main_v193 (broadcastInDim S8x1024x1024x1 ![0, 1, 2] bcast_S8x1024x1024_S8x1024x1024x1_0_1_2) ]

abbrev ops4_1 : List (HloOp τ sig (Elt F)) :=
  [ nary ![main_v191, main_v192, main_v193] main_v194 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops4_2 : List (HloOp τ sig (Elt F)) :=
  [ binary main_arg0 main_v194 main_v195 (fun x i => Host.gather gather_S3x33x33x33_S8x1024x1024x3_S3x8x1024x1024_0_123_n_n_123_3_3111 x i),
    unary main_v169 main_v196 (broadcastInDim S1x8x1024x1024 ![1, 2, 3] bcast_S8x1024x1024_S1x8x1024x1024_1_2_3),
    unary main_v196 main_v197 (broadcastInDim S3x8x1024x1024 ![0, 1, 2, 3] bcast_S1x8x1024x1024_S3x8x1024x1024_0_1_2_3),
    binary main_v197 main_v195 main_v198 mulf,
    binary main_v163 main_v198 main_v199 addf,
    binary main_v22 main_v165 main_v200 mulf,
    binary main_v200 main_v26 main_v201 mulf,
    nullary main_c_59 (constantI S_ 32 1#32),
    unary main_c_59 main_v202 (broadcastInDim S8x1024x1024 ![] bcast_S_S8x1024x1024),
    binary main_v20 main_v202 main_v203 addi,
    nullary main_c_60 (constantI S_ 32 0#32),
    unary main_c_60 main_v204 (broadcastInDim S8x1024x1024 ![] bcast_S_S8x1024x1024),
    binary main_v17 main_v204 main_v205 addi,
    nullary main_c_61 (constantI S_ 32 1#32),
    unary main_c_61 main_v206 (broadcastInDim S8x1024x1024 ![] bcast_S_S8x1024x1024),
    binary main_v14 main_v206 main_v207 addi,
    nullary main_c_62 (constantI S_ 32 0#32),
    unary main_c_62 main_v208 (broadcastInDim S8x1024x1024 ![] bcast_S_S8x1024x1024),
    binary main_v203 main_v208 main_v209 (cmpi .slt),
    nullary main_c_63 (constantI S_ 32 33#32),
    unary main_c_63 main_v210 (broadcastInDim S8x1024x1024 ![] bcast_S_S8x1024x1024),
    binary main_v203 main_v210 main_v211 addi,
    ternary main_v209 main_v211 main_v203 main_v212 select,
    nullary main_c_64 (constantI S_ 32 0#32),
    unary main_c_64 main_v213 (broadcastInDim S8x1024x1024 ![] bcast_S_S8x1024x1024),
    binary main_v205 main_v213 main_v214 (cmpi .slt),
    nullary main_c_65 (constantI S_ 32 33#32),
    unary main_c_65 main_v215 (broadcastInDim S8x1024x1024 ![] bcast_S_S8x1024x1024),
    binary main_v205 main_v215 main_v216 addi,
    ternary main_v214 main_v216 main_v205 main_v217 select,
    nullary main_c_66 (constantI S_ 32 0#32),
    unary main_c_66 main_v218 (broadcastInDim S8x1024x1024 ![] bcast_S_S8x1024x1024),
    binary main_v207 main_v218 main_v219 (cmpi .slt),
    nullary main_c_67 (constantI S_ 32 33#32),
    unary main_c_67 main_v220 (broadcastInDim S8x1024x1024 ![] bcast_S_S8x1024x1024),
    binary main_v207 main_v220 main_v221 addi,
    ternary main_v219 main_v221 main_v207 main_v222 select,
    unary main_v212 main_v223 (broadcastInDim S8x1024x1024x1 ![0, 1, 2] bcast_S8x1024x1024_S8x1024x1024x1_0_1_2),
    unary main_v217 main_v224 (broadcastInDim S8x1024x1024x1 ![0, 1, 2] bcast_S8x1024x1024_S8x1024x1024x1_0_1_2),
    unary main_v222 main_v225 (broadcastInDim S8x1024x1024x1 ![0, 1, 2] bcast_S8x1024x1024_S8x1024x1024x1_0_1_2) ]

abbrev ops4_3 : List (HloOp τ sig (Elt F)) :=
  [ nary ![main_v223, main_v224, main_v225] main_v226 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

abbrev ops4_4 : List (HloOp τ sig (Elt F)) :=
  [ binary main_arg0 main_v226 main_v227 (fun x i => Host.gather gather_S3x33x33x33_S8x1024x1024x3_S3x8x1024x1024_0_123_n_n_123_3_3111 x i),
    unary main_v201 main_v228 (broadcastInDim S1x8x1024x1024 ![1, 2, 3] bcast_S8x1024x1024_S1x8x1024x1024_1_2_3),
    unary main_v228 main_v229 (broadcastInDim S3x8x1024x1024 ![0, 1, 2, 3] bcast_S1x8x1024x1024_S3x8x1024x1024_0_1_2_3) ]

/-- Part 4 of @main, cut so that each concatenate stands alone. -/
abbrev ops4 : List (HloOp τ sig (Elt F)) := ops4_0 ++ (ops4_1 ++ (ops4_2 ++ (ops4_3 ++ ops4_4)))

set_option maxRecDepth 8192 in
set_option maxHeartbeats 8000000 in
theorem part4_eq (d : Dev nD) : main_part4 (F := F) d = seq ops4 := rfl

set_option maxRecDepth 8192 in
set_option maxHeartbeats 8000000 in
theorem ops4_sub : (ops4 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub ..⟩

set_option maxRecDepth 8192 in
set_option maxHeartbeats 8000000 in
theorem ops4_fresh : ∀ op ∈ (ops4 : List (HloOp τ sig (Elt F))), op.fresh = ∅ := by
  intro _ h; (repeat (cases h with | head => rfl | tail _ h => ?_)); exact nomatch h

end Cert.ReferenceIdeal.RunH

end
-- ==== Proof.RefStep4.lean ====
import proofs.«415802_j20744692039901_3_alg».proof.Proof.RefOps4
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step4_0 (h : Alive3_2 x0 x1 W) : Alive4_0 x0 x1 (after (ops4_0 (F := F)) W) := by
  unfold Alive3_2 Shared at h; unfold Alive4_0 Shared; alive_step h

theorem step4_1 (h : Alive4_0 x0 x1 W) : Alive4_1 x0 x1 (after (ops4_1 (F := F)) W) := by
  unfold Alive4_0 Shared at h; unfold Alive4_1 Shared; alive_step h

theorem step4_2 (h : Alive4_1 x0 x1 W) : Alive4_2 x0 x1 (after (ops4_2 (F := F)) W) := by
  unfold Alive4_1 Shared at h; unfold Alive4_2 Shared; alive_step h

theorem step4_3 (h : Alive4_2 x0 x1 W) : Alive4_3 x0 x1 (after (ops4_3 (F := F)) W) := by
  unfold Alive4_2 Shared at h; unfold Alive4_3 Shared; alive_step h

theorem step4_4 (h : Alive4_3 x0 x1 W) : Alive4_4 x0 x1 (after (ops4_4 (F := F)) W) := by
  unfold Alive4_3 Shared at h; unfold Alive4_4 Shared; alive_step h

end Cert.ReferenceIdeal.RunH

end
-- ==== Proof.RefOps5.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops5_0 : List (HloOp τ sig (Elt F)) :=
  [ binary main_v229 main_v227 main_v230 mulf,
    binary main_v199 main_v230 main_v231 addf,
    nullary main_cst_68 (constant S_ .f32 0x3F800000#32),
    unary main_cst_68 main_v232 (broadcastInDim S8x1024x1024 ![] bcast_S_S8x1024x1024),
    binary main_v232 main_v22 main_v233 subf,
    binary main_v233 main_v24 main_v234 mulf,
    binary main_v234 main_v26 main_v235 mulf,
    nullary main_c_69 (constantI S_ 32 1#32),
    unary main_c_69 main_v236 (broadcastInDim S8x1024x1024 ![] bcast_S_S8x1024x1024),
    binary main_v20 main_v236 main_v237 addi,
    nullary main_c_70 (constantI S_ 32 1#32),
    unary main_c_70 main_v238 (broadcastInDim S8x1024x1024 ![] bcast_S_S8x1024x1024),
    binary main_v17 main_v238 main_v239 addi,
    nullary main_c_71 (constantI S_ 32 0#32),
    unary main_c_71 main_v240 (broadcastInDim S8x1024x1024 ![] bcast_S_S8x1024x1024),
    binary main_v14 main_v240 main_v241 addi,
    nullary main_c_72 (constantI S_ 32 0#32),
    unary main_c_72 main_v242 (broadcastInDim S8x1024x1024 ![] bcast_S_S8x1024x1024),
    binary main_v237 main_v242 main_v243 (cmpi .slt),
    nullary main_c_73 (constantI S_ 32 33#32),
    unary main_c_73 main_v244 (broadcastInDim S8x1024x1024 ![] bcast_S_S8x1024x1024),
    binary main_v237 main_v244 main_v245 addi,
    ternary main_v243 main_v245 main_v237 main_v246 select,
    nullary main_c_74 (constantI S_ 32 0#32),
    unary main_c_74 main_v247 (broadcastInDim S8x1024x1024 ![] bcast_S_S8x1024x1024),
    binary main_v239 main_v247 main_v248 (cmpi .slt),
    nullary main_c_75 (constantI S_ 32 33#32),
    unary main_c_75 main_v249 (broadcastInDim S8x1024x1024 ![] bcast_S_S8x1024x1024),
    binary main_v239 main_v249 main_v250 addi,
    ternary main_v248 main_v250 main_v239 main_v251 select,
    nullary main_c_76 (constantI S_ 32 0#32),
    unary main_c_76 main_v252 (broadcastInDim S8x1024x1024 ![] bcast_S_S8x1024x1024),
    binary main_v241 main_v252 main_v253 (cmpi .slt),
    nullary main_c_77 (constantI S_ 32 33#32),
    unary main_c_77 main_v254 (broadcastInDim S8x1024x1024 ![] bcast_S_S8x1024x1024),
    binary main_v241 main_v254 main_v255 addi,
    ternary main_v253 main_v255 main_v241 main_v256 select,
    unary main_v246 main_v257 (broadcastInDim S8x1024x1024x1 ![0, 1, 2] bcast_S8x1024x1024_S8x1024x1024x1_0_1_2),
    unary main_v251 main_v258 (broadcastInDim S8x1024x1024x1 ![0, 1, 2] bcast_S8x1024x1024_S8x1024x1024x1_0_1_2),
    unary main_v256 main_v259 (broadcastInDim S8x1024x1024x1 ![0, 1, 2] bcast_S8x1024x1024_S8x1024x1024x1_0_1_2) ]

abbrev ops5_1 : List (HloOp τ sig (Elt F)) :=
  [ nary ![main_v257, main_v258, main_v259] main_v260 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

set_option maxHeartbeats 8000000 in
abbrev ops5_2 : List (HloOp τ sig (Elt F)) :=
  [ binary main_arg0 main_v260 main_v261 (fun x i => Host.gather gather_S3x33x33x33_S8x1024x1024x3_S3x8x1024x1024_0_123_n_n_123_3_3111 x i),
    unary main_v235 main_v262 (broadcastInDim S1x8x1024x1024 ![1, 2, 3] bcast_S8x1024x1024_S1x8x1024x1024_1_2_3),
    unary main_v262 main_v263 (broadcastInDim S3x8x1024x1024 ![0, 1, 2, 3] bcast_S1x8x1024x1024_S3x8x1024x1024_0_1_2_3),
    binary main_v263 main_v261 main_v264 mulf,
    binary main_v231 main_v264 main_v265 addf,
    binary main_v22 main_v24 main_v266 mulf,
    binary main_v266 main_v26 main_v267 mulf,
    nullary main_c_78 (constantI S_ 32 1#32),
    unary main_c_78 main_v268 (broadcastInDim S8x1024x1024 ![] bcast_S_S8x1024x1024),
    binary main_v20 main_v268 main_v269 addi,
    nullary main_c_79 (constantI S_ 32 1#32),
    unary main_c_79 main_v270 (broadcastInDim S8x1024x1024 ![] bcast_S_S8x1024x1024),
    binary main_v17 main_v270 main_v271 addi,
    nullary main_c_80 (constantI S_ 32 1#32),
    unary main_c_80 main_v272 (broadcastInDim S8x1024x1024 ![] bcast_S_S8x1024x1024),
    binary main_v14 main_v272 main_v273 addi,
    nullary main_c_81 (constantI S_ 32 0#32),
    unary main_c_81 main_v274 (broadcastInDim S8x1024x1024 ![] bcast_S_S8x1024x1024),
    binary main_v269 main_v274 main_v275 (cmpi .slt) ]

/-- Part 5 of @main, cut so that each concatenate stands alone. -/
abbrev ops5 : List (HloOp τ sig (Elt F)) := ops5_0 ++ (ops5_1 ++ ops5_2)

set_option maxRecDepth 8192 in
set_option maxHeartbeats 8000000 in
theorem part5_eq (d : Dev nD) : main_part5 (F := F) d = seq ops5 := rfl

set_option maxRecDepth 8192 in
set_option maxHeartbeats 8000000 in
theorem ops5_sub : (ops5 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
set_option maxHeartbeats 8000000 in
theorem ops5_fresh : ∀ op ∈ (ops5 : List (HloOp τ sig (Elt F))), op.fresh = ∅ := by
  intro _ h; (repeat (cases h with | head => rfl | tail _ h => ?_)); exact nomatch h

end Cert.ReferenceIdeal.RunH

end
-- ==== Proof.RefStep5.lean ====
import proofs.«415802_j20744692039901_3_alg».proof.Proof.RefOps5
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step5_0 (h : Alive4_4 x0 x1 W) : Alive5_0 x0 x1 (after (ops5_0 (F := F)) W) := by
  unfold Alive4_4 Shared at h; unfold Alive5_0 Shared; alive_step h

theorem step5_1 (h : Alive5_0 x0 x1 W) : Alive5_1 x0 x1 (after (ops5_1 (F := F)) W) := by
  unfold Alive5_0 Shared at h; unfold Alive5_1 Shared; alive_step h

theorem step5_2 (h : Alive5_1 x0 x1 W) : Alive5_2 x0 x1 (after (ops5_2 (F := F)) W) := by
  unfold Alive5_1 Shared at h; unfold Alive5_2; alive_step h

end Cert.ReferenceIdeal.RunH

end
-- ==== Proof.RefOps6.lean ====
import proofs.«415802_j20744692039901_3_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
abbrev ops6_0 : List (HloOp τ sig (Elt F)) :=
  [ nullary main_c_82 (constantI S_ 32 33#32),
    unary main_c_82 main_v276 (broadcastInDim S8x1024x1024 ![] bcast_S_S8x1024x1024),
    binary main_v269 main_v276 main_v277 addi,
    ternary main_v275 main_v277 main_v269 main_v278 select,
    nullary main_c_83 (constantI S_ 32 0#32),
    unary main_c_83 main_v279 (broadcastInDim S8x1024x1024 ![] bcast_S_S8x1024x1024),
    binary main_v271 main_v279 main_v280 (cmpi .slt),
    nullary main_c_84 (constantI S_ 32 33#32),
    unary main_c_84 main_v281 (broadcastInDim S8x1024x1024 ![] bcast_S_S8x1024x1024),
    binary main_v271 main_v281 main_v282 addi,
    ternary main_v280 main_v282 main_v271 main_v283 select,
    nullary main_c_85 (constantI S_ 32 0#32),
    unary main_c_85 main_v284 (broadcastInDim S8x1024x1024 ![] bcast_S_S8x1024x1024),
    binary main_v273 main_v284 main_v285 (cmpi .slt),
    nullary main_c_86 (constantI S_ 32 33#32),
    unary main_c_86 main_v286 (broadcastInDim S8x1024x1024 ![] bcast_S_S8x1024x1024),
    binary main_v273 main_v286 main_v287 addi,
    ternary main_v285 main_v287 main_v273 main_v288 select,
    unary main_v278 main_v289 (broadcastInDim S8x1024x1024x1 ![0, 1, 2] bcast_S8x1024x1024_S8x1024x1024x1_0_1_2),
    unary main_v283 main_v290 (broadcastInDim S8x1024x1024x1 ![0, 1, 2] bcast_S8x1024x1024_S8x1024x1024x1_0_1_2),
    unary main_v288 main_v291 (broadcastInDim S8x1024x1024x1 ![0, 1, 2] bcast_S8x1024x1024_S8x1024x1024x1_0_1_2) ]

abbrev ops6_1 : List (HloOp τ sig (Elt F)) :=
  [ nary ![main_v289, main_v290, main_v291] main_v292 (fun u => concatenate S8x1024x1024x3 3 [⟨S8x1024x1024x1, u 0⟩, ⟨S8x1024x1024x1, u 1⟩, ⟨S8x1024x1024x1, u 2⟩] concatenates_S8x1024x1024x1_S8x1024x1024x1_S8x1024x1024x1_S8x1024x1024x3_d3) ]

abbrev ops6_2 : List (HloOp τ sig (Elt F)) :=
  [ binary main_arg0 main_v292 main_v293 (fun x i => Host.gather gather_S3x33x33x33_S8x1024x1024x3_S3x8x1024x1024_0_123_n_n_123_3_3111 x i),
    unary main_v267 main_v294 (broadcastInDim S1x8x1024x1024 ![1, 2, 3] bcast_S8x1024x1024_S1x8x1024x1024_1_2_3),
    unary main_v294 main_v295 (broadcastInDim S3x8x1024x1024 ![0, 1, 2, 3] bcast_S1x8x1024x1024_S3x8x1024x1024_0_1_2_3),
    binary main_v295 main_v293 main_v296 mulf,
    binary main_v265 main_v296 main_v297 addf,
    unary main_v297 main_v298 (transpose S8x3x1024x1024 [1, 0, 2, 3] · transposes_S3x8x1024x1024_S8x3x1024x1024_1_0_2_3) ]

/-- Part 6 of @main, cut so that each concatenate stands alone. -/
abbrev ops6 : List (HloOp τ sig (Elt F)) := ops6_0 ++ (ops6_1 ++ ops6_2)

set_option maxRecDepth 8192 in
set_option maxHeartbeats 8000000 in
theorem part6_eq (d : Dev nD) : main_part6 (F := F) d = seq ops6 := rfl

set_option maxRecDepth 8192 in
set_option maxHeartbeats 8000000 in
theorem ops6_sub : (ops6 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., binary_bufs_sub .., binary_bufs_sub .., unary_bufs_sub ..⟩

set_option maxRecDepth 8192 in
set_option maxHeartbeats 8000000 in
theorem ops6_fresh : ∀ op ∈ (ops6 : List (HloOp τ sig (Elt F))), op.fresh = ∅ := by
  intro _ h; (repeat (cases h with | head => rfl | tail _ h => ?_)); exact nomatch h

end Cert.ReferenceIdeal.RunH

end
-- ==== Proof.RefStep6.lean ====
import proofs.«415802_j20744692039901_3_alg».proof.Proof.RefOps6
import proofs.«415802_j20744692039901_3_alg».proof.Proof.RefAlive

noncomputable section

namespace Cert.ReferenceIdeal.RunH

open Cert.ReferenceIdeal Cert.ReferenceIdeal.Gen Idealize.ShloMosaic Idealize.ShloMosaic.TcCoe Idealize.SL.Sem Idealize.ShloMosaic.StableHlo Cert.LibNary3 Cert.Lut

variable {F : FTy → Type} [FloatOps F]
  {x0 : FVec F SL .f32} {x1 : FVec F SX .f32}
  {W : Valuation τ sig (Elt F)}

set_option maxRecDepth 8192
set_option maxHeartbeats 8000000

theorem step6_0 (h : Alive5_2 x0 x1 W) : Alive6_0 x0 x1 (after (ops6_0 (F := F)) W) := by
  unfold Alive5_2 at h; unfold Alive6_0; alive_step h

theorem step6_1 (h : Alive6_0 x0 x1 W) : Alive6_1 x0 x1 (after (ops6_1 (F := F)) W) := by
  unfold Alive6_0 at h; unfold Alive6_1; alive_step h

theorem step6_2 (h : Alive6_1 x0 x1 W) : Alive6_2 x0 x1 (after (ops6_2 (F := F)) W) := by
  unfold Alive6_1 at h; unfold Alive6_2; alive_step h

end Cert.ReferenceIdeal.RunH

end
-- ==== Proof.RefRunH.lean ====
import proofs.«415802_j20744692039901_3_alg».proof.Proof.RefStep0
import proofs.«415802_j20744692039901_3_alg».proof.Proof.RefStep1
import proofs.«415802_j20744692039901_3_alg».proof.Proof.RefStep2
import proofs.«415802_j20744692039901_3_alg».proof.Proof.RefStep3
import proofs.«415802_j20744692039901_3_alg».proof.Proof.RefStep4
import proofs.«415802_j20744692039901_3_alg».proof.Proof.RefStep5
import proofs.«415802_j20744692039901_3_alg».proof.Proof.RefStep6
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsAll : List (HloOp τ sig (Elt F)) := ops0 ++ (ops1 ++ (ops2 ++ (ops3 ++ (ops4 ++ (ops5 ++ ops6)))))

theorem main_eq (d : Dev nD) : main (F := F) d = seq (opsAll (F := F)) := by
  simp only [opsAll, seq_append, ← part0_eq d, ← part1_eq d, ← part2_eq d, ← part3_eq d, ← part4_eq d, ← part5_eq d, ← part6_eq d]
  rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, ops6_sub⟩⟩⟩⟩⟩⟩

theorem opsAll_fresh : ∀ op ∈ (opsAll : List (HloOp τ sig (Elt F))), op.fresh = ∅ := fun op h =>
  (List.mem_append.1 h).elim (ops0_fresh op) fun h => (List.mem_append.1 h).elim (ops1_fresh op) fun h =>
  (List.mem_append.1 h).elim (ops2_fresh op) fun h => (List.mem_append.1 h).elim (ops3_fresh op) fun h =>
  (List.mem_append.1 h).elim (ops4_fresh op) fun h => (List.mem_append.1 h).elim (ops5_fresh op) (ops6_fresh op)

/-- The stretches one after the other: from any contents, the result array ends at `refResult` of the arguments, and the arguments as they were. -/
theorem after_all (M : Valuation τ sig (Elt F)) :
    Alive6_2 (M (Proc.devRef .tc main_arg0)) (M (Proc.devRef .tc main_arg1)) (after (opsAll (F := F)) M) := by
  simp only [opsAll, ops0, ops1, ops2, ops3, ops4, ops5, ops6, StableHlo.after_append]
  exact step6_2 (step6_1 (step6_0 (step5_2 (step5_1 (step5_0 (step4_4 (step4_3 (step4_2 (step4_1 (step4_0 (step3_2 (step3_1 (step3_0 (step2_4 (step2_3 (step2_2 (step2_1 (step2_0 (step1_2 (step1_1 (step1_0 (step0_0 (⟨rfl, rfl⟩)))))))))))))))))))))))

/-- Every weakly fair execution of the reference terminates with its result array at `refResult` of the two
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v298)
        = Cert.Lut.refResult (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v298).trans (after_all (launchContents m c)).2.2,
        (h c main_arg0).trans (after_all (launchContents m c)).1,
        (h c main_arg1).trans (after_all (launchContents m c)).2.1⟩)
    (run_seq scopedRefs_eq scopedSems_eq defs main (fun _ => opsAll) main_eq (fun _ => opsAll_sub) m ρ (fun _ => opsAll_fresh))

end Cert.ReferenceIdeal.RunH

end
-- ==== Proof.RefValue.lean ====
import proofs.«415802_j20744692039901_3_alg».proof.Proof.Spec
import proofs.«415802_j20744692039901_3_alg».proof.Proof.Gathers
import proofs.«415802_j20744692039901_3_alg».proof.Proof.Cells
import Idealize.ShloMosaic.Lib.Pipeline.Value

set_option maxRecDepth 8192

noncomputable section

namespace Cert.ReferenceIdeal.RefValue

open Idealize.ShloMosaic Idealize.ShloMosaic.ValueIdx Cert.Lut

/-- Adding one term, read at an entry: the sum so far plus the pixel's three weights times the corner's entry. -/
private theorem term_at (acc G : FVec Ideal SC .f32) (wr wg wb : FVec Ideal SP .f32) (c : Fin 3) (b : Fin 8) (h w : Fin 1024) :
    addf acc (term wr wg wb G) (ix4 c b h w)
      = acc (ix4 c b h w) + wr (ix3 b h w) * wg (ix3 b h w) * wb (ix3 b h w) * G (ix4 c b h w) := by
  show acc (ix4 c b h w) + overChannels (mulf (mulf wr wg) wb) (ix4 c b h w) * G (ix4 c b h w) = _
  rw [overChannels_apply]
  rfl

private theorem comp_at (u : FVec Ideal SP .f32) (p : SP.Idx) : comp u p = oneE - u p := rfl

private theorem zeros_at (i : SC.Idx) :
    (broadcastInDim SC ![] bc0C (constant S0 .f32 0x00000000#32) : FVec Ideal SC .f32) i = zeroE := rfl

/-- The transposed result reads (batch, channel, row, column) at (channel, batch, row, column). -/
private theorem transposed_at (y : FVec Ideal SC .f32) (b : Fin 8) (c : Fin 3) (h w : Fin 1024) :
    transpose SX [1, 0, 2, 3] y transposesC (ix4 b c h w) = y (ix4 c b h w) :=
  transpose_apply [1, 0, 2, 3] y transposesC _ _ (fun a => match a with
    | ⟨0, _⟩ => rfl
    | ⟨1, _⟩ => rfl
    | ⟨2, _⟩ => rfl
    | ⟨3, _⟩ => rfl)

/-- The reference's result at one entry is the weighted sum of the eight corners of the pixel's cell: the cell numbers
    are at most 31, so every stepped coordinate is read unclamped. -/
theorem reference_at (L : FVec Ideal SL .f32) (x : FVec Ideal SX .f32) (b : Fin 8) (c : Fin 3) (h w : Fin 1024) :
    refResult L x (ix4 b c h w)
      = summedAt zeroE oneE (off 0 x (ix3 b h w)) (off 1 x (ix3 b h w)) (off 2 x (ix3 b h w))
          (fun db dg dr => tableAt L c ((cell 2 x (ix3 b h w)).toNat + db.val) ((cell 1 x (ix3 b h w)).toNat + dg.val)
            ((cell 0 x (ix3 b h w)).toNat + dr.val)) := by
  have hr := cell_toNat_le 0 x (ix3 b h w)
  have hg := cell_toNat_le 1 x (ix3 b h w)
  have hb := cell_toNat_le 2 x (ix3 b h w)
  rw [refResult, transposed_at, acc8, term_at, acc7, term_at, acc6, term_at, acc5, term_at, acc4, term_at, acc3, term_at,
    acc2, term_at, acc1, term_at, zeros_at]
  simp only [corner]
  rw [cubeCorner_apply L _ _ _ 0#32 0#32 0#32 0 0 0 (by decide) (by decide) (by decide) (by decide) (by decide) (by decide) c b h w hr hg hb,
    cubeCorner_apply L _ _ _ 0#32 0#32 1#32 0 0 1 (by decide) (by decide) (by decide) (by decide) (by decide) (by decide) c b h w hr hg hb,
    cubeCorner_apply L _ _ _ 0#32 1#32 0#32 0 1 0 (by decide) (by decide) (by decide) (by decide) (by decide) (by decide) c b h w hr hg hb,
    cubeCorner_apply L _ _ _ 0#32 1#32 1#32 0 1 1 (by decide) (by decide) (by decide) (by decide) (by decide) (by decide) c b h w hr hg hb,
    cubeCorner_apply L _ _ _ 1#32 0#32 0#32 1 0 0 (by decide) (by decide) (by decide) (by decide) (by decide) (by decide) c b h w hr hg hb,
    cubeCorner_apply L _ _ _ 1#32 0#32 1#32 1 0 1 (by decide) (by decide) (by decide) (by decide) (by decide) (by decide) c b h w hr hg hb,
    cubeCorner_apply L _ _ _ 1#32 1#32 0#32 1 1 0 (by decide) (by decide) (by decide) (by decide) (by decide) (by decide) c b h w hr hg hb,
    cubeCorner_apply L _ _ _ 1#32 1#32 1#32 1 1 1 (by decide) (by decide) (by decide) (by decide) (by decide) (by decide) c b h w hr hg hb]
  simp only [comp_at]
  rfl

end Cert.ReferenceIdeal.RefValue

end
-- ==== Proof.Law.lean ====
import proofs.«415802_j20744692039901_3_alg».proof.Proof.Spec

noncomputable section

namespace Cert.Lut

/-- Over the reals the two arrangements are one polynomial in the offsets and the corners. -/
theorem nestedAt_eq_summedAt (o a b g : ℝ) (w : Fin 2 → Fin 2 → Fin 2 → ℝ) :
    nestedAt (o : EReal) a b g (fun i j k => (w i j k : EReal)) = summedAt 0 (o : EReal) a b g (fun i j k => (w i j k : EReal)) := by
  unfold nestedAt summedAt
  simp only [← EReal.coe_mul, ← EReal.coe_add, ← EReal.coe_sub, ← EReal.coe_zero]
  congr 1
  ring

/-- The same for extended reals known to be real: only there does a product distribute over a sum. -/
theorem nestedAt_eq_summedAt_of_real (z o a b g : EReal) (v : Fin 2 → Fin 2 → Fin 2 → EReal) (hz : z = 0)
    (ho : ∃ r : ℝ, o = r) (ha : ∃ r : ℝ, a = r) (hb : ∃ r : ℝ, b = r) (hg : ∃ r : ℝ, g = r)
    (hv : ∀ i j k, ∃ r : ℝ, v i j k = r) :
    nestedAt o a b g v = summedAt z o a b g v := by
  obtain ⟨o', rfl⟩ := ho
  obtain ⟨a', rfl⟩ := ha
  obtain ⟨b', rfl⟩ := hb
  obtain ⟨g', rfl⟩ := hg
  choose w hw using hv
  have hvw : v = fun i j k => (w i j k : EReal) := by
    funext i j k
    exact hw i j k
  subst hz
  rw [hvw]
  exact nestedAt_eq_summedAt o' a' b' g' w

end Cert.Lut

end
-- ==== Proof.Finite.lean ====
import proofs.«415802_j20744692039901_3_alg».proof.Pre_finite_inputs
import proofs.«415802_j20744692039901_3_alg».proof.Proof.Gen.Pre_finite_inputs
import proofs.«415802_j20744692039901_3_alg».proof.Proof.Spec
import Idealize.ShloMosaic.PureOps.Ideal.Laws
import Idealize.ShloMosaic.Lib.ReduceAll

noncomputable section

namespace Cert.Lut

open Idealize.ShloMosaic Idealize.ShloMosaic.ValueIdx

private instance subsingleton_scalar_idx : Subsingleton Cert.Pre_finite_inputs.S_.Idx :=
  ⟨fun a b => funext fun d => d.elim0⟩

private theorem inf_eq_top : Ideal.ofBits .f32 0x7F800000#32 = (⊤ : EReal) := by
  simp [Ideal.ofBits, Ideal.ieee]

/-- An extended real whose absolute value is below +∞ is a real number. -/
private theorem real_of_abs_lt_inf (a : Ideal .f32)
    (h : FloatOps.cmpf (F := Ideal) .olt (FloatOps.hostAbsf (F := Ideal) a) (FloatOps.ofBits .f32 0x7F800000#32) = 1#1) :
    ∃ r : ℝ, a = (r : EReal) := by
  change Ideal.cmp .olt (max a (-a)) (Ideal.ofBits .f32 0x7F800000#32) = 1#1 at h
  rw [inf_eq_top] at h
  induction a using EReal.rec with
  | bot => simp [Ideal.cmp] at h
  | coe r => exact ⟨r, rfl⟩
  | top => simp [Ideal.cmp] at h

/-- Under the precondition every entry of the table and of the image is a real number. -/
theorem real_of_pre (L : FVec Ideal SL .f32) (x : FVec Ideal SX .f32)
    (h : Cert.Pre_finite_inputs.fn (F := Ideal) L x = fun _ => 1#1) :
    (∀ i, ∃ r : ℝ, L i = (r : EReal)) ∧ (∀ i, ∃ r : ℝ, x i = (r : EReal)) := by
  have h0 := congrFun h ValueIdx.ix0
  dsimp only [Cert.Pre_finite_inputs.fn] at h0
  obtain ⟨hL, hx⟩ := IntOp.andi_eq_one.1 h0
  constructor
  · intro i
    exact real_of_abs_lt_inf _ (Host.reduce_andi_all _ _ _ _ _ hL i)
  · intro i
    exact real_of_abs_lt_inf _ (Host.reduce_andi_all _ _ _ _ _ hx i)

theorem one_real : ∃ r : ℝ, (FloatOps.ofBits (F := Ideal) .f32 0x3F800000#32 : EReal) = (r : EReal) := by
  refine ⟨1, ?_⟩
  rw [Ideal.ofBits_def]
  simp [Ideal.ofBits, Ideal.ieee, -EReal.coe_mul]; norm_num

theorem zero_eq : (FloatOps.ofBits (F := Ideal) .f32 0x00000000#32 : EReal) = 0 := by
  rw [Ideal.ofBits_def]
  exact Ideal.ofBits_zero_f32

private theorem bin_eq : Ideal.ofBits .f32 0x3D000000#32 = (((1 / 32 : ℝ) : ℝ) : EReal) := by
  simp [Ideal.ofBits, Ideal.ieee, -EReal.coe_mul]; norm_num

/-- An offset is real when the image is: a real divided by 1/32, minus an integer. -/
theorem off_real (k : Fin 3) (x : FVec Ideal SX .f32) (hx : ∀ i, ∃ r : ℝ, x i = (r : EReal)) (p : SP.Idx) :
    ∃ r : ℝ, off k x p = (r : EReal) := by
  obtain ⟨r, hr⟩ := hx (fun a => ⟨(![0, k.val, 0, 0] : Fin 4 → ℕ) a +
    ((Shape.reshapeEquiv castsX1 p) (a.cast (slicesX k).1.symm)).val,
    Nat.lt_of_lt_of_le (Nat.add_lt_add_left ((Shape.reshapeEquiv castsX1 p) _).isLt _) ((slicesX k).2 a)⟩)
  have hfrac : frac k x p = Ideal.div (r : EReal) (Ideal.ofBits .f32 0x3D000000#32) := by
    rw [← hr]; rfl
  have hoff : off k x p = frac k x p - (((cell k x p).toInt : ℝ) : EReal) := rfl
  rw [hoff, hfrac, bin_eq, Ideal.div_coe (by norm_num), ← EReal.coe_mul, ← EReal.coe_sub]
  exact ⟨_, rfl⟩

/-- Every table entry read is real when the table is. -/
theorem tableAt_real (L : FVec Ideal SL .f32) (hL : ∀ i, ∃ r : ℝ, L i = (r : EReal)) (c : Fin 3) (ib ig ir : ℕ) :
    ∃ r : ℝ, tableAt L c ib ig ir = (r : EReal) := hL _

end Cert.Lut

end
-- ==== Proof.lean ====
import proofs.«415802_j20744692039901_3_alg».proof.Defs
import proofs.«415802_j20744692039901_3_alg».proof.Proof.Gen.Kernel
import proofs.«415802_j20744692039901_3_alg».proof.Proof.Gen.Kernel.Skeleton
import proofs.«415802_j20744692039901_3_alg».proof.Proof.Gen.Kernel.Launch
import proofs.«415802_j20744692039901_3_alg».proof.Proof.Gen.Kernel.Points
import proofs.«415802_j20744692039901_3_alg».proof.Proof.Gen.Kernel.Frame
import proofs.«415802_j20744692039901_3_alg».proof.Proof.Gen.KernelIdeal
import proofs.«415802_j20744692039901_3_alg».proof.Proof.Gen.KernelIdeal.Skeleton
import proofs.«415802_j20744692039901_3_alg».proof.Proof.Gen.KernelIdeal.Launch
import proofs.«415802_j20744692039901_3_alg».proof.Proof.Gen.KernelIdeal.Points
import proofs.«415802_j20744692039901_3_alg».proof.Proof.Gen.KernelIdeal.Frame
import proofs.«415802_j20744692039901_3_alg».proof.Proof.Gen.ReferenceIdeal
import proofs.«415802_j20744692039901_3_alg».proof.Proof.Gen.Pre_finite_inputs
import proofs.«415802_j20744692039901_3_alg».proof.Proof.Gen.KernelIdeal.Value
import proofs.«415802_j20744692039901_3_alg».proof.Proof.KernelFinal
import proofs.«415802_j20744692039901_3_alg».proof.Proof.KernelHost
import proofs.«415802_j20744692039901_3_alg».proof.Proof.KernelValue
import proofs.«415802_j20744692039901_3_alg».proof.Proof.RefRunH
import proofs.«415802_j20744692039901_3_alg».proof.Proof.RefValue
import proofs.«415802_j20744692039901_3_alg».proof.Proof.Law
import proofs.«415802_j20744692039901_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.Lut

/-- Entry by entry the reference's sum and the kernel program's nested interpolation are one polynomial of real offsets and real table entries. -/
theorem value_eq (L : FVec Ideal SL .f32) (x : FVec Ideal SX .f32)
    (hL : ∀ i, ∃ r : ℝ, L i = (r : EReal)) (hx : ∀ i, ∃ r : ℝ, x i = (r : EReal)) :
    refResult L x
      = combine (side (flatTable L) (basePos (cell 0 x) (cell 1 x) (cell 2 x)) (off 0 x) (off 1 x) 0#32 1#32 33#32 34#32)
          (side (flatTable L) (basePos (cell 0 x) (cell 1 x) (cell 2 x)) (off 0 x) (off 1 x) 1089#32 1090#32 1122#32 1123#32)
          (off 2 x) := by
  funext i
  obtain ⟨b, c, h, w, rfl⟩ : ∃ (b : Fin 8) (c : Fin 3) (h w : Fin 1024), i = ix4 b c h w := ⟨i 0, i 1, i 2, i 3, eq_ix4 i⟩
  rw [Cert.ReferenceIdeal.RefValue.reference_at, kernel_at]
  exact (nestedAt_eq_summedAt_of_real zeroE oneE _ _ _ _ zero_eq one_real (off_real 0 x hx _) (off_real 1 x hx _)
    (off_real 2 x hx _) (fun _ _ _ => tableAt_real L hL c _ _ _)).symm

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- The kernel program ends at `combine` of what its host operations leave, the reference at `refResult`; `value_eq` joins them. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2, Cert.KernelIdeal.Host.V_c0, Cert.KernelIdeal.Host.V_c1, Cert.KernelIdeal.Host.V_bd]
  obtain ⟨hL, hx⟩ := real_of_pre _ _ (hpre c)
  exact value_eq _ _ hL hx

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
